-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_v43 : IVec S_ 1) (main_v47 : IVec S800000 1) (main_v51 : IVec S800000 1) : IVec S_ 1 :=
  let main_v52 : IVec S800000 1 := andi main_v47 main_v51
  let main_c_18 : IVec S_ 1 := constantI S_ 1 1#1
  let main_v53 : IVec S_ 1 := (fun x v => Host.reduce IntOp.andi x v reducesTo_S800000_S_d0 h_S_) main_v52 main_c_18
  let main_v54 : IVec S_ 1 := andi main_v43 main_v53
  main_v54

def fn_part2 {F : FTy → Type} [FloatOps F] (main_arg1 : IVec S2x800000 32) (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : IVec S1x800000 32 := (extractStridedSlice S1x800000 ![0, 0] · slices_S2x800000_S1x800000_0_0) main_arg1
  let main_v45 : IVec S800000 32 := shapeCast S800000 main_v44 shapeCasts_S1x800000_S800000
  let main_c_16 : IVec S_ 32 := constantI S_ 32 0#32
  let main_v46 : IVec S800000 32 := broadcastInDim S800000 ![] bcast_S_S800000 main_c_16
  let main_v47 : IVec S800000 1 := cmpi .sge main_v45 main_v46
  let main_v48 : IVec S1x800000 32 := (extractStridedSlice S1x800000 ![0, 0] · slices_S2x800000_S1x800000_0_0) main_arg1
  let main_v49 : IVec S800000 32 := shapeCast S800000 main_v48 shapeCasts_S1x800000_S800000
  let main_c_17 : IVec S_ 32 := constantI S_ 32 50000#32
  let main_v50 : IVec S800000 32 := broadcastInDim S800000 ![] bcast_S_S800000 main_c_17
  let main_v51 : IVec S800000 1 := cmpi .slt main_v49 main_v50
  fn_part3 (F := F) main_v43 main_v47 main_v51

def fn_part1 {F : FTy → Type} [FloatOps F] (main_arg1 : IVec S2x800000 32) (main_arg5 : FVec F S3x128 .f32) (main_arg6 : FVec F S3x128 .f32) (main_arg7 : FVec F S3x128 .f32) (main_arg8 : FVec F S128x1 .f32) (main_arg9 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S3x128x128 .f32) (main_arg5 : FVec F S3x128 .f32) (main_arg6 : FVec F S3x128 .f32) (main_arg7 : FVec F S3x128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S2000x128 : Shape := ⟨2, ![2000, 128]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S1x128x128 : Shape := ⟨3, ![1, 128, 128]⟩
abbrev S50000x1 : Shape := ⟨2, ![50000, 1]⟩
abbrev S2000x1 : Shape := ⟨2, ![2000, 1]⟩

abbrev nBuf : Space → Nat
  | .hbm => 168
  | .vmem => 66
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S3x128x128, .f32⟩
  | 5 => ⟨S3x128, .f32⟩
  | 6 => ⟨S3x128, .f32⟩
  | 7 => ⟨S3x128, .f32⟩
  | 8 => ⟨S128x1, .f32⟩
  | 9 => ⟨S1, .f32⟩
  | 10 => ⟨S1x800000, .i32⟩
  | 11 => ⟨S800000, .i32⟩
  | 12 => ⟨S1x800000, .i32⟩
  | 13 => ⟨S800000, .i32⟩
  | 14 => ⟨S1x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S1, .i32⟩
  | 25 => ⟨S_, .i32⟩
  | 26 => ⟨S800000x1, .i32⟩
  | 27 => ⟨S800000x1, .i1⟩
  | 28 => ⟨S1x1, .i32⟩
  | 29 => ⟨S800000x1, .i32⟩
  | 30 => ⟨S800000x1, .i1⟩
  | 31 => ⟨S800000x1, .i1⟩
  | 32 => ⟨S_, .i1⟩
  | 33 => ⟨S800000, .i1⟩
  | 34 => ⟨S800000x128, .f32⟩
  | 35 => ⟨S800000x128, .i1⟩
  | 36 => ⟨S_, .f32⟩
  | 37 => ⟨S800000x128, .f32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S50000x128, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S_, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S1x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S1, .i32⟩
  | 75 => ⟨S_, .i32⟩
  | 76 => ⟨S800000x1, .i32⟩
  | 77 => ⟨S800000x1, .i1⟩
  | 78 => ⟨S1x1, .i32⟩
  | 79 => ⟨S800000x1, .i32⟩
  | 80 => ⟨S800000x1, .i1⟩
  | 81 => ⟨S800000x1, .i1⟩
  | 82 => ⟨S_, .i1⟩
  | 83 => ⟨S800000, .i1⟩
  | 84 => ⟨S800000x128, .f32⟩
  | 85 => ⟨S800000x128, .i1⟩
  | 86 => ⟨S_, .f32⟩
  | 87 => ⟨S800000x128, .f32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S50000x128, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S1x128, .f32⟩
  | 108 => ⟨S1x128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S1x128, .f32⟩
  | 115 => ⟨S50000x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S1, .i32⟩
  | 125 => ⟨S_, .i32⟩
  | 126 => ⟨S800000x1, .i32⟩
  | 127 => ⟨S800000x1, .i1⟩
  | _ => ⟨S50000x128, .f32⟩

abbrev hbmTy0_1 (i : Nat) : BufTy := match i % 128 with
  | 0 => ⟨S1x1, .i32⟩
  | 1 => ⟨S800000x1, .i32⟩
  | 2 => ⟨S800000x1, .i1⟩
  | 3 => ⟨S800000x1, .i1⟩
  | 4 => ⟨S_, .i1⟩
  | 5 => ⟨S800000, .i1⟩
  | 6 => ⟨S800000x128, .f32⟩
  | 7 => ⟨S800000x128, .i1⟩
  | 8 => ⟨S_, .f32⟩
  | 9 => ⟨S800000x128, .f32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S50000x128, .f32⟩
  | 21 => ⟨S1x128, .f32⟩
  | 22 => ⟨S1x128, .f32⟩
  | 23 => ⟨S_, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S1x128, .f32⟩
  | 30 => ⟨S1x128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S1x128, .f32⟩
  | 37 => ⟨S50000x128, .f32⟩
  | 38 => ⟨S1x1, .f32⟩
  | 39 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S128x1, .f32⟩
  | .local _ .vmem, ⟨63, _⟩ => ⟨S1x1, .f32⟩
  | .local _ .vmem, ⟨64, _⟩ => ⟨S2000x1, .f32⟩
  | .local _ .vmem, ⟨65, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15_0 : Ref sig .tc := ⟨.hbm, 48, rfl⟩
abbrev main_v15_1 : Ref sig .tc := ⟨.hbm, 49, rfl⟩
abbrev main_v15_2 : Ref sig .tc := ⟨.hbm, 50, rfl⟩
abbrev main_cst_0 : Ref sig .tc := ⟨.hbm, 51, rfl⟩
abbrev main_v16 : Ref sig .tc := ⟨.hbm, 52, rfl⟩
abbrev main_v17 : Ref sig .tc := ⟨.hbm, 53, rfl⟩
abbrev main_cst_1 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v29 : Ref sig .tc := ⟨.hbm, 88, rfl⟩
abbrev main_cst_2 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38_0 : Ref sig .tc := ⟨.hbm, 98, rfl⟩
abbrev main_v38_1 : Ref sig .tc := ⟨.hbm, 99, rfl⟩
abbrev main_v38_2 : Ref sig .tc := ⟨.hbm, 100, rfl⟩
abbrev main_cst_3 : Ref sig .tc := ⟨.hbm, 101, rfl⟩
abbrev main_v39 : Ref sig .tc := ⟨.hbm, 102, rfl⟩
abbrev main_v40 : Ref sig .tc := ⟨.hbm, 103, rfl⟩
abbrev main_cst_4 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_call2_c : Ref sig .tc := ⟨.hbm, 116, rfl⟩
abbrev main_call2_v0 : Ref sig .tc := ⟨.hbm, 117, rfl⟩
abbrev main_call2_v1 : Ref sig .tc := ⟨.hbm, 118, rfl⟩
abbrev main_call2_c_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_c_1 : Ref sig .tc := ⟨.hbm, 124, rfl⟩
abbrev main_call2_c_2 : Ref sig .tc := ⟨.hbm, 125, rfl⟩
abbrev main_call2_v6 : Ref sig .tc := ⟨.hbm, 126, rfl⟩
abbrev main_call2_v7 : Ref sig .tc := ⟨.hbm, 127, rfl⟩
abbrev main_call2_v8 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_c_3 : Ref sig .tc := ⟨.hbm, 132, rfl⟩
abbrev main_call2_v12 : Ref sig .tc := ⟨.hbm, 133, rfl⟩
abbrev main_call2_v13 : Ref sig .tc := ⟨.hbm, 134, rfl⟩
abbrev main_call2_v14 : Ref sig .tc := ⟨.hbm, 135, rfl⟩
abbrev main_call2_cst : Ref sig .tc := ⟨.hbm, 136, rfl⟩
abbrev main_call2_v15 : Ref sig .tc := ⟨.hbm, 137, rfl⟩
abbrev main_v52 : Ref sig .tc := ⟨.hbm, 138, rfl⟩
abbrev main_cst_5 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61_0 : Ref sig .tc := ⟨.hbm, 148, rfl⟩
abbrev main_v61_1 : Ref sig .tc := ⟨.hbm, 149, rfl⟩
abbrev main_v61_2 : Ref sig .tc := ⟨.hbm, 150, rfl⟩
abbrev main_cst_6 : Ref sig .tc := ⟨.hbm, 151, rfl⟩
abbrev main_v62 : Ref sig .tc := ⟨.hbm, 152, rfl⟩
abbrev main_v63 : Ref sig .tc := ⟨.hbm, 153, rfl⟩
abbrev main_cst_7 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg6_0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc5_stg5_0 : Ref sig .tc := ⟨.vmem, 50, rfl⟩
abbrev cc5_stg6_0 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem6_0 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem4_1 : DmaSem sig := 49
abbrev cc5_sem5_0 : DmaSem sig := 50
abbrev cc5_sem6_0 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem3_1 : DmaSem sig := 65

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S2000x128_S2000x128 : S2000x128.ShapeCasts S2000x128
  shapeCasts_S128x128_S128x128 : S128x128.ShapeCasts S128x128
  reduces_S2000x128_S128 : S2000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x128.size a ≤ S50000x128.size a
  hwx6_5 : ∀ i : grid6.Coords, EltTy.bits .f32 = 32 ∨ (Rect.block (s := S50000x128) S2000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x1.size a ≤ S128x1.size a
  hwx7_1 : ∀ i : grid7.Coords, EltTy.bits .f32 = 32 ∨ (Rect.block (s := S128x1) S128x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x1.size a ≤ S50000x1.size a
  hwx7_3 : ∀ i : grid7.Coords, EltTy.bits .f32 = 32 ∨ (Rect.block (s := S50000x1) S2000x1.size (cc7_transform_3 i) (hinb7_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v15_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v28) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38_0) S2000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v38_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v38_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v51) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v57) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v60) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v61_0) S2000x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v61_1) S1x128.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v61_2) S1x128.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v61_0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v72) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v73) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v74) S2000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v74) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg8) S128x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v75) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v76) S2000x1.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S50000x1 : Shape := ⟨2, ![50000, 1]⟩
abbrev S1x1 : Shape := ⟨2, ![1, 1]⟩

abbrev nBuf : Space → Nat
  | .hbm => 210
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S3x128x128, .f32⟩
  | 5 => ⟨S3x128, .f32⟩
  | 6 => ⟨S3x128, .f32⟩
  | 7 => ⟨S3x128, .f32⟩
  | 8 => ⟨S128x1, .f32⟩
  | 9 => ⟨S1, .f32⟩
  | 10 => ⟨S1x800000, .i32⟩
  | 11 => ⟨S800000, .i32⟩
  | 12 => ⟨S1x800000, .i32⟩
  | 13 => ⟨S800000, .i32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S128, .f32⟩
  | 63 => ⟨S128, .f32⟩
  | 64 => ⟨S1x128, .f32⟩
  | 65 => ⟨S50000x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S128, .f32⟩
  | 104 => ⟨S_, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S50000x128, .f32⟩
  | 111 => ⟨S_, .f32⟩
  | 112 => ⟨S128, .f32⟩
  | 113 => ⟨S_, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S128, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x128, .f32⟩
  | 25 => ⟨S1x128x128, .f32⟩
  | 26 => ⟨S128x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S128, .f32⟩
  | 35 => ⟨S_, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S50000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S_, .f32⟩
  | 51 => ⟨S128, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x1, .f32⟩
  | 71 => ⟨S1x1, .f32⟩
  | 72 => ⟨S50000x1, .f32⟩
  | 73 => ⟨S50000x1, .f32⟩
  | 74 => ⟨S50000x1, .f32⟩
  | 75 => ⟨S50000x1, .f32⟩
  | 76 => ⟨S_, .f32⟩
  | 77 => ⟨S50000x1, .f32⟩
  | 78 => ⟨S50000x1, .f32⟩
  | 79 => ⟨S_, .f32⟩
  | 80 => ⟨S50000x1, .f32⟩
  | 81 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call1_cst : Ref sig .tc := ⟨.hbm, 77, rfl⟩
abbrev main_call1_v0 : Ref sig .tc := ⟨.hbm, 78, rfl⟩
abbrev main_v57 : Ref sig .tc := ⟨.hbm, 79, rfl⟩
abbrev main_c_6 : Ref sig .tc := ⟨.hbm, 80, rfl⟩
abbrev main_v58 : Ref sig .tc := ⟨.hbm, 81, rfl⟩
abbrev main_v59 : Ref sig .tc := ⟨.hbm, 82, rfl⟩
abbrev main_c_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_9 : Ref sig .tc := ⟨.hbm, 102, rfl⟩
abbrev main_v77 : Ref sig .tc := ⟨.hbm, 103, rfl⟩
abbrev main_cst_10 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_11 : Ref sig .tc := ⟨.hbm, 111, rfl⟩
abbrev main_v84 : Ref sig .tc := ⟨.hbm, 112, rfl⟩
abbrev main_cst_12 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_13 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_call2_cst : Ref sig .tc := ⟨.hbm, 136, rfl⟩
abbrev main_call2_v0 : Ref sig .tc := ⟨.hbm, 137, rfl⟩
abbrev main_v106 : Ref sig .tc := ⟨.hbm, 138, rfl⟩
abbrev main_c_14 : Ref sig .tc := ⟨.hbm, 139, rfl⟩
abbrev main_v107 : Ref sig .tc := ⟨.hbm, 140, rfl⟩
abbrev main_v108 : Ref sig .tc := ⟨.hbm, 141, rfl⟩
abbrev main_c_15 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_16 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_17 : Ref sig .tc := ⟨.hbm, 161, rfl⟩
abbrev main_v126 : Ref sig .tc := ⟨.hbm, 162, rfl⟩
abbrev main_cst_18 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_19 : Ref sig .tc := ⟨.hbm, 170, rfl⟩
abbrev main_v133 : Ref sig .tc := ⟨.hbm, 171, rfl⟩
abbrev main_cst_20 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_21 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_call3_cst : Ref sig .tc := ⟨.hbm, 195, rfl⟩
abbrev main_call3_v0 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_22 : Ref sig .tc := ⟨.hbm, 204, rfl⟩
abbrev main_v162 : Ref sig .tc := ⟨.hbm, 205, rfl⟩
abbrev main_v163 : Ref sig .tc := ⟨.hbm, 206, rfl⟩
abbrev main_cst_23 : Ref sig .tc := ⟨.hbm, 207, rfl⟩
abbrev main_v164 : Ref sig .tc := ⟨.hbm, 208, rfl⟩
abbrev main_v165 : Ref sig .tc := ⟨.hbm, 209, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

noncomputable section

open scoped BigOperators

namespace GinSpec

open Idealize.ShloMosaic Idealize.ShloMosaic.ValueIdx

abbrev ND : Shape := ⟨2, ![50000, 128]⟩
abbrev DD : Shape := ⟨2, ![128, 128]⟩
abbrev OD : Shape := ⟨2, ![1, 128]⟩
abbrev DO : Shape := ⟨2, ![128, 1]⟩
abbrev OO : Shape := ⟨2, ![1, 1]⟩
abbrev NO : Shape := ⟨2, ![50000, 1]⟩

abbrev Arr (s : Shape) : Type := s.Idx → EReal

def IsReal {s : Shape} (a : Arr s) : Prop := ∀ i, ∃ r : ℝ, a i = (r : EReal)

abbrev nodesWord : EReal := Ideal.ofBits .f32 0x47435000#32

abbrev epsWord : EReal := Ideal.ofBits .f32 0x3727C5AC#32

def affine (x : Arr ND) (w : Arr DD) (b : Arr OD) : Arr ND :=
  fun i => (∑ k : Fin 128, x (ix2 (i 0) k) * w (ix2 k (i 1))) + b (ix2 0 (i 1))

theorem affine_apply (x : Arr ND) (w : Arr DD) (b : Arr OD) (p : Fin 50000) (q : Fin 128) :
    affine x w b (ix2 p q) = (∑ k : Fin 128, x (ix2 p k) * w (ix2 k q)) + b (ix2 0 q) := rfl

def relu {s : Shape} (a : Arr s) : Arr s := fun i => max (a i) 0

def linRelu (x : Arr ND) (w : Arr DD) (b : Arr OD) : Arr ND := relu (affine x w b)

def gnnZ (h agg : Arr ND) (w : Arr DD) (b : Arr OD) : Arr ND := affine (fun i => h i + agg i) w b

def colSum (z : Arr ND) : Arr OD := fun j => ∑ r : Fin 50000, z (ix2 r (j 1))

def sq (z : Arr ND) : Arr ND := fun i => z i * z i

def overN (s : Arr OD) : Arr OD := fun j => Ideal.div (s j) nodesWord

def varOfMoments (ss mu : Arr OD) : Arr OD := fun j => Ideal.div (ss j) nodesWord - mu j * mu j

def devSq (z : Arr ND) (mu : Arr OD) : Arr ND :=
  fun i => (z i - mu (ix2 0 (i 1))) * (z i - mu (ix2 0 (i 1)))

def bn (z : Arr ND) (mu var g be : Arr OD) : Arr ND :=
  fun i => max ((z i - mu (ix2 0 (i 1))) * Ideal.rsqrt (var (ix2 0 (i 1)) + epsWord) * g (ix2 0 (i 1)) + be (ix2 0 (i 1))) 0

theorem bn_apply (z : Arr ND) (mu var g be : Arr OD) (p : Fin 50000) (q : Fin 128) :
    bn z mu var g be (ix2 p q)
      = max ((z (ix2 p q) - mu (ix2 0 q)) * Ideal.rsqrt (var (ix2 0 q) + epsWord) * g (ix2 0 q) + be (ix2 0 q)) 0 := rfl

def layerMoments (A : Arr ND → Arr ND) (h : Arr ND) (w : Arr DD) (b g be : Arr OD) : Arr ND :=
  bn (gnnZ h (A h) w b) (overN (colSum (gnnZ h (A h) w b)))
    (varOfMoments (colSum (sq (gnnZ h (A h) w b))) (overN (colSum (gnnZ h (A h) w b)))) g be

def layerDeviations (A : Arr ND → Arr ND) (h : Arr ND) (w : Arr DD) (b g be : Arr OD) : Arr ND :=
  bn (gnnZ h (A h) w b) (overN (colSum (gnnZ h (A h) w b)))
    (overN (colSum (devSq (gnnZ h (A h) w b) (overN (colSum (gnnZ h (A h) w b)))))) g be

def head (h : Arr ND) (w : Arr DO) (b : Arr OO) : Arr NO :=
  fun i => Ideal.logistic ((∑ k : Fin 128, h (ix2 (i 0) k) * w (ix2 k 0)) + b (ix2 0 0))

theorem head_apply (h : Arr ND) (w : Arr DO) (b : Arr OO) (p : Fin 50000) :
    head h w b (ix2 p 0) = Ideal.logistic ((∑ k : Fin 128, h (ix2 p k) * w (ix2 k 0)) + b (ix2 0 0)) := rfl

end GinSpec

end
-- ==== Proof.Agg.lean ====
import proofs.«407668_j26396869001791_1_alg».proof.Proof.Gen.KernelIdeal
import proofs.«407668_j26396869001791_1_alg».proof.Proof.Spec
import Idealize.ShloMosaic.Lib.ValueIdx
import Idealize.ShloMosaic.Lib.ReduceAll
import Idealize.ShloMosaic.Lib.StableHlo.Predicate
import Idealize.ShloMosaic.PureOps.Ideal.Laws

noncomputable section

open scoped BigOperators

namespace Cert.KernelIdeal.Agg

open Cert.KernelIdeal Cert.KernelIdeal.Gen GinSpec
open Idealize.ShloMosaic Idealize.ShloMosaic.ValueIdx

def srcOf (e : IVec S2x800000 32) : IVec S800000 32 :=
  shapeCast S800000 (extractStridedSlice S1x800000 ![0, 0] e slices_S2x800000_S1x800000_0_0) shapeCasts_S1x800000_S800000

def dstOf (e : IVec S2x800000 32) : IVec S800000 32 :=
  shapeCast S800000 (extractStridedSlice S1x800000 ![1, 0] e slices_S2x800000_S1x800000_1_0) shapeCasts_S1x800000_S800000

def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def inRange (src : IVec S800000 32) : IVec S800000 1 :=
  Host.reduce IntOp.andi
    (andi (cmpi .sge (wrapIdx src) (broadcastInDim S800000x1 ![] bcast_S_S800000x1 (constantI S_ 32 0#32)))
      (cmpi .sle (wrapIdx src) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

def gathered (h : FVec Ideal S50000x128 .f32) (src : IVec S800000 32) : FVec Ideal S800000x128 .f32 :=
  Host.gather gather_S50000x128_S800000x1_S800000x128_1_0_n_n_0_1_1128 h (wrapIdx src)

def gatheredOrFill (h : FVec Ideal S50000x128 .f32) (src : IVec S800000 32) : FVec Ideal S800000x128 .f32 :=
  select (broadcastInDim S800000x128 ![0] bcast_S800000_S800000x128_0 (inRange src)) (gathered h src)
    (broadcastInDim S800000x128 ![] bcast_S_S800000x128 (constant S_ .f32 0x7FC00000#32))

def scatterSum (dst : IVec S800000 32) (u : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) u

def aggFill (e : IVec S2x800000 32) (h : Arr ND) : Arr ND := scatterSum (dstOf e) (gatheredOrFill h (srcOf e))

def aggPlain (e : IVec S2x800000 32) (h : Arr ND) : Arr ND := scatterSum (dstOf e) (gathered h (srcOf e))

def SrcInRange (e : IVec S2x800000 32) : Prop :=
  ∀ i : S800000.Idx, IntOp.cmpi .sge (srcOf e i) 0#32 = 1#1 ∧ IntOp.cmpi .slt (srcOf e i) 50000#32 = 1#1

theorem word_inRange (s : BitVec 32) (h0 : IntOp.cmpi .sge s 0#32 = 1#1) (h1 : IntOp.cmpi .slt s 50000#32 = 1#1) :
    IntOp.andi
      (IntOp.cmpi .sge (Scalar.select (IntOp.cmpi .slt s 0#32) (IntOp.addi s 50000#32) s) 0#32)
      (IntOp.cmpi .sle (Scalar.select (IntOp.cmpi .slt s 0#32) (IntOp.addi s 50000#32) s) 49999#32) = 1#1 := by
  have z0 : (0#32 : BitVec 32).toInt = 0 := by decide
  have z1 : (50000#32 : BitVec 32).toInt = 50000 := by decide
  have z2 : (49999#32 : BitVec 32).toInt = 49999 := by decide
  have g0 : 0 ≤ s.toInt := by
    simpa only [IntOp.cmpi, BitVec.sle, z0, StableHlo.Predicate.ofBool_eq_one_iff, decide_eq_true_eq] using h0
  have g1 : s.toInt < 50000 := by
    simpa only [IntOp.cmpi, BitVec.slt, z1, StableHlo.Predicate.ofBool_eq_one_iff, decide_eq_true_eq] using h1
  have hneg : IntOp.cmpi .slt s 0#32 = 0#1 := by
    apply eq_zero_of_ne_one
    simp only [IntOp.cmpi, BitVec.slt, z0, StableHlo.Predicate.ofBool_eq_one_iff, decide_eq_true_eq]
    omega
  have hle : IntOp.cmpi .sle s 49999#32 = 1#1 := by
    simp only [IntOp.cmpi, BitVec.sle, z2, StableHlo.Predicate.ofBool_eq_one_iff, decide_eq_true_eq]
    omega
  rw [hneg, select_zero, h0, hle]
  rfl

theorem fold_andi_ones {ι : Type} (T : Finset ι) (x : ι → BitVec 1) (hx : ∀ i, x i = 1#1) :
    T.fold IntOp.andi 1#1 x = 1#1 := by
  induction T using Finset.cons_induction with
  | empty => rfl
  | cons a T ha ih => rw [Finset.fold_cons, ih, hx a]; rfl

theorem inRange_eq_one (src : IVec S800000 32)
    (hs : ∀ k : S800000.Idx, IntOp.cmpi .sge (src k) 0#32 = 1#1 ∧ IntOp.cmpi .slt (src k) 50000#32 = 1#1)
    (k : S800000.Idx) : inRange src k = 1#1 := by
  have hw : ∀ i : S800000x1.Idx, ∃ k' : S800000.Idx, wrapIdx src i
      = Scalar.select (IntOp.cmpi .slt (src k') 0#32) (IntOp.addi (src k') 50000#32) (src k') := fun i => ⟨_, rfl⟩
  unfold inRange
  rw [Host.reduce_eq_fold]
  refine fold_andi_ones _ _ (fun i => ?_)
  obtain ⟨k', hk'⟩ := hw i
  show IntOp.andi (IntOp.cmpi .sge (wrapIdx src i) 0#32) (IntOp.cmpi .sle (wrapIdx src i) 49999#32) = 1#1
  rw [hk']
  exact word_inRange (src k') (hs k').1 (hs k').2

theorem gatheredOrFill_eq (e : IVec S2x800000 32) (he : SrcInRange e) (h : FVec Ideal S50000x128 .f32) :
    gatheredOrFill h (srcOf e) = gathered h (srcOf e) := by
  have hall : ∀ k, inRange (srcOf e) k = 1#1 := inRange_eq_one (srcOf e) he
  funext j
  unfold gatheredOrFill
  rw [select_apply]

  generalize inRange (srcOf e) = c at hall ⊢
  have hc : broadcastInDim S800000x128 ![0] bcast_S800000_S800000x128_0 c j = 1#1 := hall _
  rw [hc, select_one]

theorem aggFill_eq (e : IVec S2x800000 32) (he : SrcInRange e) : aggFill e = aggPlain e := by
  funext h
  unfold aggFill aggPlain
  rw [gatheredOrFill_eq e he h]

theorem exists_real_add {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

theorem exists_real_sum {ι : Type} (T : Finset ι) (f : ι → EReal) (hf : ∀ j, ∃ r : ℝ, f j = (r : EReal)) :
    ∃ r : ℝ, ∑ j ∈ T, f j = (r : EReal) := by
  induction T using Finset.cons_induction with
  | empty => exact ⟨0, by rw [Finset.sum_empty, EReal.coe_zero]⟩
  | cons a T ha ih => rw [Finset.sum_cons]; exact exists_real_add (hf a) ih

theorem exists_real_scatterAdd {s si su : Shape} {w : Nat} (d : ScatterDims s si su) (x : FVec Ideal s .f32)
    (idx : IVec si w) (u : FVec Ideal su .f32) (hx : ∀ i, ∃ r : ℝ, x i = (r : EReal))
    (hu : ∀ j, ∃ r : ℝ, u j = (r : EReal)) (i : s.Idx) : ∃ r : ℝ, Host.scatterAdd d x idx u i = (r : EReal) :=
  exists_real_add (hx i) (exists_real_sum _ _ hu)

theorem isReal_aggPlain (e : IVec S2x800000 32) {h : Arr ND} (hh : IsReal h) : IsReal (aggPlain e h) := by
  intro i

  have hu : ∀ j, ∃ r : ℝ, gathered h (srcOf e) j = (r : EReal) := fun j => hh _

  have hz : ∀ i', ∃ r : ℝ, broadcastInDim S50000x128 ![] bcast_S_S50000x128
      (constant (F := Ideal) S_ .f32 0x00000000#32) i' = (r : EReal) :=
    fun _ => ⟨0, Ideal.ofBits_zero_f32.trans EReal.coe_zero.symm⟩
  exact exists_real_scatterAdd _ _ _ _ hz hu i

end Cert.KernelIdeal.Agg

end
-- ==== Proof.KNames.lean ====
import proofs.«407668_j26396869001791_1_alg».proof.Proof.Gen.KernelIdeal.Frame
import proofs.«407668_j26396869001791_1_alg».proof.Proof.Spec
import proofs.«407668_j26396869001791_1_alg».proof.Proof.Agg
import Idealize.ShloMosaic.Lib.StableHlo.Run

noncomputable section

namespace Cert.KernelIdeal.Chain

open Cert.KernelIdeal Cert.KernelIdeal.Gen Cert.KernelIdeal.Agg GinSpec
open Idealize.ShloMosaic Idealize.ShloMosaic.TcCoe Idealize.SL.Sem Idealize.ShloMosaic.StableHlo

macro "wstep" : tactic => `(tactic| first
  | (rw [W19_of_ne]; rotate_left; decide)
  | (rw [W17_of_ne]; rotate_left; decide)
  | (rw [W15_of_ne]; rotate_left; decide)
  | (rw [W12_of_ne]; rotate_left; decide)
  | (rw [W10_of_ne]; rotate_left; decide)
  | (rw [W7_of_ne]; rotate_left; decide)
  | (rw [W5_of_ne]; rotate_left; decide)
  | (rw [W2_of_ne]; rotate_left; decide)
  | (dsimp only [W1, W3, W4, W6, W8, W9, W11, W13, W14, W16, W18]; after_results_simp))

variable (m : (ℓ : Loc nD τ sig) → Buf (Elt Ideal) ℓ)

def edges (c : Dev nD) : IVec S2x800000 32 := m ((c : Thread nD τ).loc main_arg1)

def biasFt (c : Dev nD) : Arr OD := shapeCast S1x128 (m ((c : Thread nD τ).loc main_arg3)) shapeCasts_S128_S1x128

def weightsAt (x : FVec Ideal S3x128x128 .f32) (off : Fin 3 → Nat) (hs : S3x128x128.Slices off S1x128x128) : Arr DD :=
  shapeCast S128x128 (extractStridedSlice S1x128x128 off x hs) shapeCasts_S1x128x128_S128x128

def rowAt (x : FVec Ideal S3x128 .f32) (off : Fin 2 → Nat) (hs : S3x128.Slices off S1x128) : Arr OD :=
  shapeCast S1x128 (shapeCast S128 (extractStridedSlice S1x128 off x hs) shapeCasts_S1x128_S128) shapeCasts_S128_S1x128

def biasHead (c : Dev nD) : Arr OO := shapeCast S1x1 (m ((c : Thread nD τ).loc main_arg9)) shapeCasts_S1_S1x1

def layer (c : Dev nD) (h : Arr ND) (off3 : Fin 3 → Nat) (hs3 : S3x128x128.Slices off3 S1x128x128)
    (off2 : Fin 2 → Nat) (hs2 : S3x128.Slices off2 S1x128) : Arr ND :=
  layerMoments (aggFill (edges m c)) h (weightsAt (m ((c : Thread nD τ).loc main_arg4)) off3 hs3)
    (rowAt (m ((c : Thread nD τ).loc main_arg5)) off2 hs2) (rowAt (m ((c : Thread nD τ).loc main_arg6)) off2 hs2)
    (rowAt (m ((c : Thread nD τ).loc main_arg7)) off2 hs2)

def table0 (c : Dev nD) : Arr ND :=
  linRelu (m ((c : Thread nD τ).loc main_arg0)) (m ((c : Thread nD τ).loc main_arg2)) (biasFt m c)

def table1 (c : Dev nD) : Arr ND :=
  layer m c (table0 m c) ![0, 0, 0] slices_S3x128x128_S1x128x128_0_0_0 ![0, 0] slices_S3x128_S1x128_0_0
def table2 (c : Dev nD) : Arr ND :=
  layer m c (table1 m c) ![1, 0, 0] slices_S3x128x128_S1x128x128_1_0_0 ![1, 0] slices_S3x128_S1x128_1_0
def table3 (c : Dev nD) : Arr ND :=
  layer m c (table2 m c) ![2, 0, 0] slices_S3x128x128_S1x128x128_2_0_0 ![2, 0] slices_S3x128_S1x128_2_0

def outCol (c : Dev nD) : Arr NO := head (table3 m c) (m ((c : Thread nD τ).loc main_arg8)) (biasHead m c)

end Cert.KernelIdeal.Chain

end
-- ==== Proof.GnnLinear.lean ====
import proofs.«407668_j26396869001791_1_alg».proof.Proof.Gen.KernelIdeal.Skeleton
import proofs.«407668_j26396869001791_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Lin

open Cert.KernelIdeal Cert.KernelIdeal.Gen GinSpec
open Idealize.ShloMosaic Idealize.ShloMosaic.TcCoe Idealize.ShloMosaic.ValueIdx Idealize.SL.Sem

theorem noOffset : (![0, 0] : Fin 2 → Nat) = fun _ => 0 := funext fun a => by fin_cases a <;> rfl

theorem lhs_blk_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_blk_1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs_blk_0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs_blk_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000-row block times the weights onto a zero accumulator is the plain sum over the 128 shared indices. -/
theorem blockProduct_apply {φ₁ φ₂ : FTy} (l : FVec Ideal S2000x128 φ₁) (w : FVec Ideal S128x128 φ₂) (r : Fin 2000) (q : Fin 128) :
    matmul dot_S2000x128_S128x128_S2000x128_1_0_0_1_n_n none l w (constant S2000x128 .f32 0x00000000#32) (ix2 r q) = ∑ k : Fin 128, l (ix2 r k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r q) ((ValueIdx.contrEquiv1 dot_S2000x128_S128x128_S2000x128_1_0_0_1_n_n 128 rfl rfl).symm k) = ix2 r k := funext fun a => Fin.ext (by
    match a with
    | ⟨0, _⟩ => exact lhs_blk_0 _ _
    | ⟨1, _⟩ => exact (lhs_blk_1 _ _).trans hk)
  have er : dot_S2000x128_S128x128_S2000x128_1_0_0_1_n_n.rhsIdx (ix2 r q) ((ValueIdx.contrEquiv1 dot_S2000x128_S128x128_S2000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

theorem zPayload_apply (x0 x1 : Vec Ideal S2000x128 .f32) (x2 : Vec Ideal S128x128 .f32) (x3 : Vec Ideal S1x128 .f32)
    (r : Fin 2000) (q : Fin 128) :
    k1_pay3 (F := Ideal) x0 x1 x2 x3 (ix2 r q)
      = (∑ k : Fin 128, (x0 (ix2 r k) + x1 (ix2 r k)) * x2 (ix2 k q)) + x3 (ix2 0 q) := by
  unfold k1_pay3
  simp only [shapeCast_self]
  refine (addf_apply _ _ (ix2 r q)).trans ?_
  refine congrArg₂ (· + ·) ((blockProduct_apply _ _ r q).trans ?_) (broadcastTo_1b_ab_apply x3 broadcasts_S1x128_S2000x128 r q)
  rfl

theorem rowPutBack (r : Fin 2000) (q : Fin 128) : reduces_S2000x128_S128.lift (ix1 q) r = (ix2 r q : S2000x128.Idx) :=
  funext fun a => Fin.ext (by
    match a with
    | ⟨0, _⟩ => rfl
    | ⟨1, _⟩ => rfl)

/-- One grid point's three results from its four blocks and the two rows as they stood: the block of z, and each row
    plus the block's column sums of z and of z·z. -/
def stepOf {F : FTy → Type} [FloatOps F] (x0 x1 : Vec F S2000x128 .f32) (x2 : Vec F S128x128 .f32) (x3 s5 s6 : Vec F S1x128 .f32) :
    Vec F S2000x128 .f32 × Vec F S1x128 .f32 × Vec F S1x128 .f32 :=
  (k1_pay3 x0 x1 x2 x3, k1_pay4 x0 x1 x2 x3 s5, k1_pay5 x0 x1 x2 x3 s6)

/-- Row r of point t's block as a row of the array; modulo 50000 so that it is a row for every t. -/
def rowAt (t : ℕ) (r : Fin 2000) : Fin 50000 := ⟨(2000 * t + r.val) % 50000, Nat.mod_lt _ (by decide)⟩

theorem rowAt_val (t : ℕ) (ht : t < 25) (r : Fin 2000) : (rowAt t r).val = 2000 * t + r.val := by
  have := r.isLt
  show (2000 * t + r.val) % 50000 = 2000 * t + r.val
  omega

/-- Each row at column q is the row as it stood plus the block's column sum of z (of z·z), when the block's z
    is rows of an array Z: the sum runs over the block's row axis and keeps the column. -/
theorem stepOf_apply (x0 x1 : Vec Ideal S2000x128 .f32) (x2 : Vec Ideal S128x128 .f32) (x3 s5 s6 : Vec Ideal S1x128 .f32)
    (Z : Arr ND) (t : ℕ) (hz : ∀ r q, k1_pay3 (F := Ideal) x0 x1 x2 x3 (ix2 r q) = Z (ix2 (rowAt t r) q)) (q : Fin 128) :
    (stepOf x0 x1 x2 x3 s5 s6).2.1 (ix2 0 q) = s5 (ix2 0 q) + ∑ r : Fin 2000, Z (ix2 (rowAt t r) q)
    ∧ (stepOf x0 x1 x2 x3 s5 s6).2.2 (ix2 0 q) = s6 (ix2 0 q) + ∑ r : Fin 2000, sq Z (ix2 (rowAt t r) q) := by
  constructor
  · show k1_pay4 (F := Ideal) x0 x1 x2 x3 s5 (ix2 0 q) = _
    unfold k1_pay4
    simp only [shapeCast_self]
    refine (addf_apply _ _ (ix2 0 q)).trans (congrArg (s5 (ix2 0 q) + ·) ?_)
    refine (shapeCast_a_1a_apply _ shapeCasts_S128_S1x128 0 q).trans ?_
    refine (Ideal.multiReduction_add_single (k1_pay3 (F := Ideal) x0 x1 x2 x3) 0x00000000#32 reduces_S2000x128_S128 _ _ (ix1 q)).trans ?_
    exact Finset.sum_congr rfl fun r _ => (congrArg _ (rowPutBack r q)).trans (hz r q)
  · show k1_pay5 (F := Ideal) x0 x1 x2 x3 s6 (ix2 0 q) = _
    unfold k1_pay5
    simp only [shapeCast_self]
    refine (addf_apply _ _ (ix2 0 q)).trans (congrArg (s6 (ix2 0 q) + ·) ?_)
    refine (shapeCast_a_1a_apply _ shapeCasts_S128_S1x128 0 q).trans ?_
    refine (Ideal.multiReduction_add_single (mulf (k1_pay3 (F := Ideal) x0 x1 x2 x3) (k1_pay3 (F := Ideal) x0 x1 x2 x3)) 0x00000000#32 reduces_S2000x128_S128 _ _ (ix1 q)).trans ?_
    exact Finset.sum_congr rfl fun r _ =>
      ((congrArg _ (rowPutBack r q)).trans (mulf_apply _ _ (ix2 r q))).trans (congrArg₂ (· * ·) (hz r q) (hz r q))

/-- The 25 points' blocks of 2000 rows are the 50000 rows, each once. -/
theorem sum_allRows (f : Fin 50000 → EReal) :
    ∑ t ∈ Finset.range 25, ∑ r : Fin 2000, f (rowAt t r) = ∑ p : Fin 50000, f p := by
  rw [Finset.sum_range (fun t => ∑ r : Fin 2000, f (rowAt t r)),
    ← Fintype.sum_prod_type' (fun (t : Fin 25) (r : Fin 2000) => f (rowAt t.val r))]
  refine Fintype.sum_equiv (finProdFinEquiv (m := 25) (n := 2000)) _ f fun x => congrArg f (Fin.ext ?_)
  have h1 := x.1.isLt
  have h2 := x.2.isLt
  show (2000 * x.1.val + x.2.val) % 50000 = x.2.val + 2000 * x.1.val
  omega

theorem row_ext (X : Vec Ideal S1x128 .f32) (G : Arr OD) (h : ∀ q : Fin 128, X (ix2 0 q) = G (ix2 0 q)) : X = G := by
  funext j
  obtain ⟨u, q, rfl⟩ : ∃ (u : Fin 1) (q : Fin 128), j = ix2 u q := ⟨j 0, j 1, eq_ix2 j⟩
  obtain rfl : u = 0 := Subsingleton.elim _ _
  exact h q

/-- The running sums: if the results after point 0 are the step over zero rows, and after each later point the step
    over what the point before left, each point's z block being its rows of Z, then after the last of the 25 points
    the two rows hold the column sums of Z and of its square. Addition on the extended reals needs no finiteness. -/
theorem sums_of_steps {N : ℕ}
    (o : (n : ℕ) → n < N → Vec Ideal S2000x128 .f32 × Vec Ideal S1x128 .f32 × Vec Ideal S1x128 .f32)
    (b0 b1 : (n : ℕ) → n < N → Vec Ideal S2000x128 .f32) (b2 : (n : ℕ) → n < N → Vec Ideal S128x128 .f32)
    (b3 : (n : ℕ) → n < N → Vec Ideal S1x128 .f32) (Z : Arr ND)
    (hz : ∀ n h r q, k1_pay3 (F := Ideal) (b0 n h) (b1 n h) (b2 n h) (b3 n h) (ix2 r q) = Z (ix2 (rowAt n r) q))
    (h0 : ∀ h, o 0 h = stepOf (b0 0 h) (b1 0 h) (b2 0 h) (b3 0 h) (k1_pay1 (F := Ideal)) (k1_pay2 (F := Ideal)))
    (hs : ∀ n h, o (n + 1) h = stepOf (b0 (n + 1) h) (b1 (n + 1) h) (b2 (n + 1) h) (b3 (n + 1) h)
      (o n (Nat.lt_of_succ_lt h)).2.1 (o n (Nat.lt_of_succ_lt h)).2.2)
    (n : ℕ) (h : n < N) (hn : n = 24) : (o n h).2.1 = colSum Z ∧ (o n h).2.2 = colSum (sq Z) := by
  have key : ∀ (q : Fin 128) (k : ℕ) (h : k < N),
      (o k h).2.1 (ix2 0 q) = ∑ t ∈ Finset.range (k + 1), ∑ r : Fin 2000, Z (ix2 (rowAt t r) q)
      ∧ (o k h).2.2 (ix2 0 q) = ∑ t ∈ Finset.range (k + 1), ∑ r : Fin 2000, sq Z (ix2 (rowAt t r) q) := by
    intro q k
    induction k with
    | zero =>
      intro h
      have e := stepOf_apply _ _ _ _ (k1_pay1 (F := Ideal)) (k1_pay2 (F := Ideal)) Z 0 (hz 0 h) q
      rw [h0 h, Finset.sum_range_one, Finset.sum_range_one, e.1, e.2]
      exact ⟨(congrArg (· + _) Ideal.ofBits_zero_f32).trans (zero_add _), (congrArg (· + _) Ideal.ofBits_zero_f32).trans (zero_add _)⟩
    | succ k ih =>
      intro h
      have e := stepOf_apply _ _ _ _ (o k (Nat.lt_of_succ_lt h)).2.1 (o k (Nat.lt_of_succ_lt h)).2.2 Z (k + 1) (hz (k + 1) h) q
      rw [hs k h, Finset.sum_range_succ _ (k + 1), Finset.sum_range_succ _ (k + 1), e.1, e.2, (ih _).1, (ih _).2]
      exact ⟨rfl, rfl⟩
  exact ⟨row_ext _ _ fun q => (key q n h).1.trans (by rw [hn]; exact sum_allRows fun p => Z (ix2 p q)),
    row_ext _ _ fun q => (key q n h).2.trans (by rw [hn]; exact sum_allRows fun p => sq Z (ix2 p q))⟩

/-- The normalising body at row r, column q of a block: entrywise, each of the four rows repeated down the block.
    The second argument is the variance and the third the mean. -/
theorem bnBody_apply (z : Vec Ideal S2000x128 .f32) (va mu g be : Vec Ideal S1x128 .f32) (r : Fin 2000) (q : Fin 128) :
    k2_pay1 (F := Ideal) z va mu g be (ix2 r q)
      = max ((z (ix2 r q) - mu (ix2 0 q)) * Ideal.rsqrt (va (ix2 0 q) + epsWord) * g (ix2 0 q) + be (ix2 0 q)) 0 := by
  unfold k2_pay1
  simp only [shapeCast_self]
  rw [maximumf_apply, addf_apply, mulf_apply, mulf_apply, subf_apply,
    broadcastTo_1b_ab_apply, broadcastTo_1b_ab_apply, broadcastTo_1b_ab_apply, broadcastTo_1b_ab_apply]
  show max _ (Ideal.ofBits .f32 0x00000000#32) = _
  rw [Ideal.ofBits_zero_f32]
  rfl

theorem bn_congr {z z' m m' v v' g g' b b' : EReal} (hzz : z = z') (hm : m = m') (hv : v = v') (hg : g = g')
    (hb : b = b') :
    max ((z - m) * Ideal.rsqrt (v + epsWord) * g + b) 0 = max ((z' - m') * Ideal.rsqrt (v' + epsWord) * g' + b') 0 := by
  subst hzz hm hv hg hb; rfl

end Cert.KernelIdeal.Lin

end
-- ==== Proof.R0.lean ====
import proofs.«407668_j26396869001791_1_alg».proof.Proof.Gen.KernelIdeal.Frame
import proofs.«407668_j26396869001791_1_alg».proof.Proof.GnnLinear

set_option maxRecDepth 16384

noncomputable section

open scoped BigOperators

namespace Cert.KernelIdeal.R0

open Cert.KernelIdeal Cert.KernelIdeal.Gen Cert.KernelIdeal.Lin GinSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body at row r, column q of a block: the block product plus the bias row's entry, clipped at zero. -/
theorem pay_apply (x0 : Vec Ideal S2000x128 .f32) (x1 : Vec Ideal S128x128 .f32) (x2 : Vec Ideal S1x128 .f32)
    (r : Fin 2000) (q : Fin 128) :
    k0_pay1 (F := Ideal) x0 x1 x2 (ix2 r q) = max ((∑ k : Fin 128, x0 (ix2 r k) * x1 (ix2 k q)) + x2 (ix2 0 q)) 0 := by
  unfold k0_pay1
  rw [maximumf_apply, addf_apply, broadcast_apply]
  refine congrArg₂ max (congrArg₂ (· + ·) ?_ ?_) ?_
  · exact (blockProduct_apply _ _ r q).trans (Finset.sum_congr rfl fun k _ => rfl)
  · rw [shapeCast_self]
    exact broadcastTo_1b_ab_apply x2 broadcasts_S1x128_S2000x128 r q
  · exact Ideal.ofBits_zero_f32

theorem block_indices : ∀ t : Fin cfg0.N, (cfg0.win 0).index t ⟨0, by decide⟩ = t.val ∧ (cfg0.win 0).index t ⟨1, by decide⟩ = 0
    ∧ (cfg0.win 1).index t ⟨0, by decide⟩ = 0 ∧ (cfg0.win 1).index t ⟨1, by decide⟩ = 0 ∧ (cfg0.win 2).index t ⟨0, by decide⟩ = 0 ∧ (cfg0.win 2).index t ⟨1, by decide⟩ = 0
    ∧ (cfg0.win 3).index t ⟨0, by decide⟩ = t.val ∧ (cfg0.win 3).index t ⟨1, by decide⟩ = 0 :=
  (by decide +kernel : ∀ t : Fin grid0.N, _)

/-- Point t's block of the result is rows 2000·t … of the feature transform: a block's entry sits in its array at block
    index × block size + the coordinate inside the block. -/
theorem written_back_eq (c : Dev nD) (t : Fin cfg0.N) :
    (dat0 (F := Ideal) V c).flushed 3 t
      = ((cfg0.win 3).blk t).view.read (Elt Ideal)
          (linRelu (V c (Pipeline.arrRef spec0 0)) (V c (Pipeline.arrRef spec0 1)) (V c (Pipeline.arrRef spec0 2))) := by
  have hb := block_indices t
  have hN : t.val < 25 := t.isLt.trans_eq N_0
  show (cfg0.win 3).cut (grid0.coords t) ((dat0 V c).after 3 t) = _
  rw [after0_3]
  unfold out0_3
  rw [View.canon_unit_zero noOffset]
  simp only [View.ld_unit_zero (S := S2000x128) noOffset, View.ld_unit_zero (S := S128x128) noOffset, View.ld_unit_zero (S := S1x128) noOffset]
  refine funext fun (j : S2000x128.Idx) => ?_
  obtain ⟨r, q, rfl⟩ : ∃ (r : Fin 2000) (q : Fin 128), j = ix2 r q := ⟨j 0, j 1, eq_ix2 j⟩
  have hr : 2000 * t.val + r.val < 50000 := by have := r.isLt; omega
  have hemb : (((cfg0.win 3).blk t).view.emb (ix2 r q) : S50000x128.Idx) = ix2 ⟨2000 * t.val + r.val, hr⟩ q := by
    funext a; apply Fin.ext
    match a with
    | ⟨0, _⟩ => show _ * 2000 + 1 * r.val = 2000 * t.val + r.val; omega
    | ⟨1, _⟩ => show _ * 128 + 1 * q.val = q.val; omega
  rw [View.read_apply]
  show k0_pay1 (F := Ideal) (iblk0 V c 0 t) (iblk0 V c 1 t) (iblk0 V c 2 t) (ix2 r q)
      = linRelu (V c (Pipeline.arrRef spec0 0)) (V c (Pipeline.arrRef spec0 1)) (V c (Pipeline.arrRef spec0 2))
          (((cfg0.win 3).blk t).view.emb (ix2 r q))
  rw [hemb]
  refine (pay_apply (iblk0 V c 0 t) (iblk0 V c 1 t) (iblk0 V c 2 t) r q).trans ?_
  show _ = max (affine _ _ _ (ix2 _ q)) 0
  rw [affine_apply]
  refine congrArg₂ max (congrArg₂ (· + ·) (Finset.sum_congr rfl fun k _ => congrArg₂ (· * ·) ?_ ?_) ?_) rfl
  · exact congrArg (V c _) (funext fun a => Fin.ext (by
      match a with
      | ⟨0, _⟩ => show _ * 2000 + 1 * r.val = 2000 * t.val + r.val; omega
      | ⟨1, _⟩ => show _ * 128 + 1 * k.val = k.val; omega))
  · exact congrArg (V c _) (funext fun a => Fin.ext (by
      match a with
      | ⟨0, _⟩ => show _ * 128 + 1 * k.val = k.val; omega
      | ⟨1, _⟩ => show _ * 128 + 1 * q.val = q.val; omega))
  · exact congrArg (V c _) (funext fun a => Fin.ext (by
      match a with
      | ⟨0, _⟩ => show _ * 1 + 1 * 0 = 0; omega
      | ⟨1, _⟩ => show _ * 128 + 1 * q.val = q.val; omega))

/-- After the region its output array is the feature transform: row p lies in the block of point p / 2000. -/
theorem out_eq (c : Dev nD) :
    (dat0 (F := Ideal) V c).arrAt 3 cfg0.N
      = linRelu (V c (Pipeline.arrRef spec0 0)) (V c (Pipeline.arrRef spec0 1)) (V c (Pipeline.arrRef spec0 2)) :=
  (dat0 (F := Ideal) V c).arrAt_eq_of_cover 3 _ (fun t _ => written_back_eq V c t) fun i => by
    have h0 : (i 0).val < 50000 := (i 0).isLt
    have h1 : (i 1).val < 128 := (i 1).isLt
    have hN : cfg0.N = 25 := N_0
    let t : Fin cfg0.N := ⟨(i 0).val / 2000, by rw [hN]; omega⟩
    have hb := block_indices t
    have ht : t.val = (i 0).val / 2000 := rfl
    refine ⟨t, flush0_3 t, ?_⟩
    show i ∈ ((View.whole main_v5).slice ((cfg0.win 3).rect t)).set
    rw [View.set_slice_whole, Rect.mem_set_unit]
    intro a
    match a with
    | ⟨0, _⟩ => show _ * 2000 ≤ (i 0).val ∧ (i 0).val < _ * 2000 + 2000; omega
    | ⟨1, _⟩ => show _ * 128 ≤ (i 1).val ∧ (i 1).val < _ * 128 + 128; omega

end Cert.KernelIdeal.R0

end
-- ==== Proof.KStage0.lean ====
import proofs.«407668_j26396869001791_1_alg».proof.Proof.KNames
import proofs.«407668_j26396869001791_1_alg».proof.Proof.R0
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Agg GinSpec
open Idealize.ShloMosaic Idealize.ShloMosaic.TcCoe Idealize.SL.Sem Idealize.ShloMosaic.StableHlo

variable (m : (ℓ : Loc nD τ sig) → Buf (Elt Ideal) ℓ) (ρ : Dev nD → PrngReg)

theorem exit0 (c : Dev nD) : W2 m ρ c (Proc.devRef .tc main_v5) = table0 m c := by
  refine (W2_arr m ρ c 3).trans ?_
  rw [R0.out_eq]
  unfold table0 biasFt
  congr 1

end Cert.KernelIdeal.Chain

end
-- ==== Proof.LibTypedOps.lean ====
import Idealize.ShloMosaic.Lib.StableHlo

noncomputable section

namespace Idealize.ShloMosaic.StableHlo.TRef

open Idealize.ShloMosaic Idealize.ShloMosaic.StableHlo

variable {τ : Topo} {sig : RefSig} {Val : EltTy → Type}

abbrev plain (r : Ref sig .tc) (hd : r.space ≠ .host) (hu : r.isScoped = false) : TRef sig r.ty := ⟨r, rfl, hd, hu⟩

theorem nullary_plain (y : Ref sig .tc) (hd hu) (v : y.ty.Contents Val) :
    TRef.nullary (τ := τ) (plain y hd hu) v = StableHlo.nullary y v (plain y hd hu).dev := rfl

theorem unary_plain (x y : Ref sig .tc) (hdx hux hdy huy) (f : x.ty.Contents Val → y.ty.Contents Val) :
    TRef.unary (τ := τ) (plain x hdx hux) (plain y hdy huy) f
      = StableHlo.unary x y f (plain x hdx hux).dev (plain y hdy huy).dev := rfl

theorem binary_plain (a b y : Ref sig .tc) (hda hua hdb hub hdy huy)
    (f : a.ty.Contents Val → b.ty.Contents Val → y.ty.Contents Val) :
    TRef.binary (τ := τ) (plain a hda hua) (plain b hdb hub) (plain y hdy huy) f
      = StableHlo.binary a b y f (plain a hda hua).dev (plain b hdb hub).dev (plain y hdy huy).dev := rfl

theorem ternary_plain (c a b y : Ref sig .tc) (hdc huc hda hua hdb hub hdy huy)
    (f : c.ty.Contents Val → a.ty.Contents Val → b.ty.Contents Val → y.ty.Contents Val) :
    TRef.ternary (τ := τ) (plain c hdc huc) (plain a hda hua) (plain b hdb hub) (plain y hdy huy) f
      = StableHlo.ternary c a b y f (plain c hdc huc).dev (plain a hda hua).dev (plain b hdb hub).dev (plain y hdy huy).dev := rfl

end Idealize.ShloMosaic.StableHlo.TRef

end
-- ==== Proof.KTake.lean ====
import proofs.«407668_j26396869001791_1_alg».proof.Proof.Gen.KernelIdeal.Launch
import proofs.«407668_j26396869001791_1_alg».proof.Proof.LibTypedOps

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

abbrev takeOps1 : List (HloOp τ sig (Elt F)) :=
  [ StableHlo.nullary main_call0_c (constantI S_ 32 0#32),
    StableHlo.unary main_call0_c main_call0_v0 (broadcastInDim S800000 ![] bcast_S_S800000),
    StableHlo.binary main_v1 main_call0_v0 main_call0_v1 (cmpi .slt),
    StableHlo.nullary main_call0_c_0 (constantI S_ 32 50000#32),
    StableHlo.unary main_call0_c_0 main_call0_v2 (broadcastInDim S800000 ![] bcast_S_S800000),
    StableHlo.binary main_v1 main_call0_v2 main_call0_v3 (addi),
    StableHlo.ternary main_call0_v1 main_call0_v3 main_v1 main_call0_v4 (select),
    StableHlo.unary main_call0_v4 main_call0_v5 (broadcastInDim S800000x1 ![0] bcast_S800000_S800000x1_0),
    StableHlo.nullary main_call0_c_1 (constantI S1 32 49999#32),
    StableHlo.nullary main_call0_c_2 (constantI S_ 32 0#32),
    StableHlo.unary main_call0_c_2 main_call0_v6 (broadcastInDim S800000x1 ![] bcast_S_S800000x1),
    StableHlo.binary main_call0_v5 main_call0_v6 main_call0_v7 (cmpi .sge),
    StableHlo.unary main_call0_c_1 main_call0_v8 (broadcastInDim S1x1 ![1] bcast_S1_S1x1_1),
    StableHlo.unary main_call0_v8 main_call0_v9 (broadcastInDim S800000x1 ![0, 1] bcast_S1x1_S800000x1_0_1),
    StableHlo.binary main_call0_v5 main_call0_v9 main_call0_v10 (cmpi .sle),
    StableHlo.binary main_call0_v7 main_call0_v10 main_call0_v11 (andi),
    StableHlo.nullary main_call0_c_3 (constantI S_ 1 1#1),
    StableHlo.binary main_call0_v11 main_call0_c_3 main_call0_v12 (fun x v => Host.reduce IntOp.andi x v reducesTo_S800000x1_S800000_d1 h_S_),
    StableHlo.binary main_v5 main_call0_v5 main_call0_v13 (fun x i => Host.gather gather_S50000x128_S800000x1_S800000x128_1_0_n_n_0_1_1128 x i),
    StableHlo.unary main_call0_v12 main_call0_v14 (broadcastInDim S800000x128 ![0] bcast_S800000_S800000x128_0),
    StableHlo.nullary main_call0_cst (constant S_ .f32 0x7FC00000#32),
    StableHlo.unary main_call0_cst main_call0_v15 (broadcastInDim S800000x128 ![] bcast_S_S800000x128),
    StableHlo.ternary main_call0_v14 main_call0_v13 main_call0_v15 main_v6 (select) ]

theorem hostOps1_eq : (hostOps1 : List (HloOp τ sig (Elt F))) = takeOps1 :=
  congrArg₂ List.cons (StableHlo.TRef.nullary_plain main_call0_c _ _ _)
    (congrArg₂ List.cons (StableHlo.TRef.unary_plain main_call0_c main_call0_v0 _ _ _ _ _)
    (congrArg₂ List.cons (StableHlo.TRef.binary_plain main_v1 main_call0_v0 main_call0_v1 _ _ _ _ _ _ _)
    (congrArg₂ List.cons (StableHlo.TRef.nullary_plain main_call0_c_0 _ _ _)
    (congrArg₂ List.cons (StableHlo.TRef.unary_plain main_call0_c_0 main_call0_v2 _ _ _ _ _)
    (congrArg₂ List.cons (StableHlo.TRef.binary_plain main_v1 main_call0_v2 main_call0_v3 _ _ _ _ _ _ _)
    (congrArg₂ List.cons (StableHlo.TRef.ternary_plain main_call0_v1 main_call0_v3 main_v1 main_call0_v4 _ _ _ _ _ _ _ _ _)
    (congrArg₂ List.cons (StableHlo.TRef.unary_plain main_call0_v4 main_call0_v5 _ _ _ _ _)
    (congrArg₂ List.cons (StableHlo.TRef.nullary_plain main_call0_c_1 _ _ _)
    (congrArg₂ List.cons (StableHlo.TRef.nullary_plain main_call0_c_2 _ _ _)
    (congrArg₂ List.cons (StableHlo.TRef.unary_plain main_call0_c_2 main_call0_v6 _ _ _ _ _)
    (congrArg₂ List.cons (StableHlo.TRef.binary_plain main_call0_v5 main_call0_v6 main_call0_v7 _ _ _ _ _ _ _)
    (congrArg₂ List.cons (StableHlo.TRef.unary_plain main_call0_c_1 main_call0_v8 _ _ _ _ _)
    (congrArg₂ List.cons (StableHlo.TRef.unary_plain main_call0_v8 main_call0_v9 _ _ _ _ _)
    (congrArg₂ List.cons (StableHlo.TRef.binary_plain main_call0_v5 main_call0_v9 main_call0_v10 _ _ _ _ _ _ _)
    (congrArg₂ List.cons (StableHlo.TRef.binary_plain main_call0_v7 main_call0_v10 main_call0_v11 _ _ _ _ _ _ _)
    (congrArg₂ List.cons (StableHlo.TRef.nullary_plain main_call0_c_3 _ _ _)
    (congrArg₂ List.cons (StableHlo.TRef.binary_plain main_call0_v11 main_call0_c_3 main_call0_v12 _ _ _ _ _ _ _)
    (congrArg₂ List.cons (StableHlo.TRef.binary_plain main_v5 main_call0_v5 main_call0_v13 _ _ _ _ _ _ _)
    (congrArg₂ List.cons (StableHlo.TRef.unary_plain main_call0_v12 main_call0_v14 _ _ _ _ _)
    (congrArg₂ List.cons (StableHlo.TRef.nullary_plain main_call0_cst _ _ _)
    (congrArg₂ List.cons (StableHlo.TRef.unary_plain main_call0_cst main_call0_v15 _ _ _ _ _)
    (congrArg₂ List.cons (StableHlo.TRef.ternary_plain main_call0_v14 main_call0_v13 main_call0_v15 main_v6 _ _ _ _ _ _ _ _ _)
    (rfl)))))))))))))))))))))))

abbrev takeOps3 : List (HloOp τ sig (Elt F)) :=
  [ StableHlo.nullary main_call1_c (constantI S_ 32 0#32),
    StableHlo.unary main_call1_c main_call1_v0 (broadcastInDim S800000 ![] bcast_S_S800000),
    StableHlo.binary main_v1 main_call1_v0 main_call1_v1 (cmpi .slt),
    StableHlo.nullary main_call1_c_0 (constantI S_ 32 50000#32),
    StableHlo.unary main_call1_c_0 main_call1_v2 (broadcastInDim S800000 ![] bcast_S_S800000),
    StableHlo.binary main_v1 main_call1_v2 main_call1_v3 (addi),
    StableHlo.ternary main_call1_v1 main_call1_v3 main_v1 main_call1_v4 (select),
    StableHlo.unary main_call1_v4 main_call1_v5 (broadcastInDim S800000x1 ![0] bcast_S800000_S800000x1_0),
    StableHlo.nullary main_call1_c_1 (constantI S1 32 49999#32),
    StableHlo.nullary main_call1_c_2 (constantI S_ 32 0#32),
    StableHlo.unary main_call1_c_2 main_call1_v6 (broadcastInDim S800000x1 ![] bcast_S_S800000x1),
    StableHlo.binary main_call1_v5 main_call1_v6 main_call1_v7 (cmpi .sge),
    StableHlo.unary main_call1_c_1 main_call1_v8 (broadcastInDim S1x1 ![1] bcast_S1_S1x1_1),
    StableHlo.unary main_call1_v8 main_call1_v9 (broadcastInDim S800000x1 ![0, 1] bcast_S1x1_S800000x1_0_1),
    StableHlo.binary main_call1_v5 main_call1_v9 main_call1_v10 (cmpi .sle),
    StableHlo.binary main_call1_v7 main_call1_v10 main_call1_v11 (andi),
    StableHlo.nullary main_call1_c_3 (constantI S_ 1 1#1),
    StableHlo.binary main_call1_v11 main_call1_c_3 main_call1_v12 (fun x v => Host.reduce IntOp.andi x v reducesTo_S800000x1_S800000_d1 h_S_),
    StableHlo.binary main_v28 main_call1_v5 main_call1_v13 (fun x i => Host.gather gather_S50000x128_S800000x1_S800000x128_1_0_n_n_0_1_1128 x i),
    StableHlo.unary main_call1_v12 main_call1_v14 (broadcastInDim S800000x128 ![0] bcast_S800000_S800000x128_0),
    StableHlo.nullary main_call1_cst (constant S_ .f32 0x7FC00000#32),
    StableHlo.unary main_call1_cst main_call1_v15 (broadcastInDim S800000x128 ![] bcast_S_S800000x128),
    StableHlo.ternary main_call1_v14 main_call1_v13 main_call1_v15 main_v29 (select) ]

theorem hostOps3_eq : (hostOps3 : List (HloOp τ sig (Elt F))) = takeOps3 :=
  congrArg₂ List.cons (StableHlo.TRef.nullary_plain main_call1_c _ _ _)
    (congrArg₂ List.cons (StableHlo.TRef.unary_plain main_call1_c main_call1_v0 _ _ _ _ _)
    (congrArg₂ List.cons (StableHlo.TRef.binary_plain main_v1 main_call1_v0 main_call1_v1 _ _ _ _ _ _ _)
    (congrArg₂ List.cons (StableHlo.TRef.nullary_plain main_call1_c_0 _ _ _)
    (congrArg₂ List.cons (StableHlo.TRef.unary_plain main_call1_c_0 main_call1_v2 _ _ _ _ _)
    (congrArg₂ List.cons (StableHlo.TRef.binary_plain main_v1 main_call1_v2 main_call1_v3 _ _ _ _ _ _ _)
    (congrArg₂ List.cons (StableHlo.TRef.ternary_plain main_call1_v1 main_call1_v3 main_v1 main_call1_v4 _ _ _ _ _ _ _ _ _)
    (congrArg₂ List.cons (StableHlo.TRef.unary_plain main_call1_v4 main_call1_v5 _ _ _ _ _)
    (congrArg₂ List.cons (StableHlo.TRef.nullary_plain main_call1_c_1 _ _ _)
    (congrArg₂ List.cons (StableHlo.TRef.nullary_plain main_call1_c_2 _ _ _)
    (congrArg₂ List.cons (StableHlo.TRef.unary_plain main_call1_c_2 main_call1_v6 _ _ _ _ _)
    (congrArg₂ List.cons (StableHlo.TRef.binary_plain main_call1_v5 main_call1_v6 main_call1_v7 _ _ _ _ _ _ _)
    (congrArg₂ List.cons (StableHlo.TRef.unary_plain main_call1_c_1 main_call1_v8 _ _ _ _ _)
    (congrArg₂ List.cons (StableHlo.TRef.unary_plain main_call1_v8 main_call1_v9 _ _ _ _ _)
    (congrArg₂ List.cons (StableHlo.TRef.binary_plain main_call1_v5 main_call1_v9 main_call1_v10 _ _ _ _ _ _ _)
    (congrArg₂ List.cons (StableHlo.TRef.binary_plain main_call1_v7 main_call1_v10 main_call1_v11 _ _ _ _ _ _ _)
    (congrArg₂ List.cons (StableHlo.TRef.nullary_plain main_call1_c_3 _ _ _)
    (congrArg₂ List.cons (StableHlo.TRef.binary_plain main_call1_v11 main_call1_c_3 main_call1_v12 _ _ _ _ _ _ _)
    (congrArg₂ List.cons (StableHlo.TRef.binary_plain main_v28 main_call1_v5 main_call1_v13 _ _ _ _ _ _ _)
    (congrArg₂ List.cons (StableHlo.TRef.unary_plain main_call1_v12 main_call1_v14 _ _ _ _ _)
    (congrArg₂ List.cons (StableHlo.TRef.nullary_plain main_call1_cst _ _ _)
    (congrArg₂ List.cons (StableHlo.TRef.unary_plain main_call1_cst main_call1_v15 _ _ _ _ _)
    (congrArg₂ List.cons (StableHlo.TRef.ternary_plain main_call1_v14 main_call1_v13 main_call1_v15 main_v29 _ _ _ _ _ _ _ _ _)
    (rfl)))))))))))))))))))))))

abbrev takeOps5 : List (HloOp τ sig (Elt F)) :=
  [ StableHlo.nullary main_call2_c (constantI S_ 32 0#32),
    StableHlo.unary main_call2_c main_call2_v0 (broadcastInDim S800000 ![] bcast_S_S800000),
    StableHlo.binary main_v1 main_call2_v0 main_call2_v1 (cmpi .slt),
    StableHlo.nullary main_call2_c_0 (constantI S_ 32 50000#32),
    StableHlo.unary main_call2_c_0 main_call2_v2 (broadcastInDim S800000 ![] bcast_S_S800000),
    StableHlo.binary main_v1 main_call2_v2 main_call2_v3 (addi),
    StableHlo.ternary main_call2_v1 main_call2_v3 main_v1 main_call2_v4 (select),
    StableHlo.unary main_call2_v4 main_call2_v5 (broadcastInDim S800000x1 ![0] bcast_S800000_S800000x1_0),
    StableHlo.nullary main_call2_c_1 (constantI S1 32 49999#32),
    StableHlo.nullary main_call2_c_2 (constantI S_ 32 0#32),
    StableHlo.unary main_call2_c_2 main_call2_v6 (broadcastInDim S800000x1 ![] bcast_S_S800000x1),
    StableHlo.binary main_call2_v5 main_call2_v6 main_call2_v7 (cmpi .sge),
    StableHlo.unary main_call2_c_1 main_call2_v8 (broadcastInDim S1x1 ![1] bcast_S1_S1x1_1),
    StableHlo.unary main_call2_v8 main_call2_v9 (broadcastInDim S800000x1 ![0, 1] bcast_S1x1_S800000x1_0_1),
    StableHlo.binary main_call2_v5 main_call2_v9 main_call2_v10 (cmpi .sle),
    StableHlo.binary main_call2_v7 main_call2_v10 main_call2_v11 (andi),
    StableHlo.nullary main_call2_c_3 (constantI S_ 1 1#1),
    StableHlo.binary main_call2_v11 main_call2_c_3 main_call2_v12 (fun x v => Host.reduce IntOp.andi x v reducesTo_S800000x1_S800000_d1 h_S_),
    StableHlo.binary main_v51 main_call2_v5 main_call2_v13 (fun x i => Host.gather gather_S50000x128_S800000x1_S800000x128_1_0_n_n_0_1_1128 x i),
    StableHlo.unary main_call2_v12 main_call2_v14 (broadcastInDim S800000x128 ![0] bcast_S800000_S800000x128_0),
    StableHlo.nullary main_call2_cst (constant S_ .f32 0x7FC00000#32),
    StableHlo.unary main_call2_cst main_call2_v15 (broadcastInDim S800000x128 ![] bcast_S_S800000x128),
    StableHlo.ternary main_call2_v14 main_call2_v13 main_call2_v15 main_v52 (select) ]

theorem hostOps5_eq : (hostOps5 : List (HloOp τ sig (Elt F))) = takeOps5 :=
  congrArg₂ List.cons (StableHlo.TRef.nullary_plain main_call2_c _ _ _)
    (congrArg₂ List.cons (StableHlo.TRef.unary_plain main_call2_c main_call2_v0 _ _ _ _ _)
    (congrArg₂ List.cons (StableHlo.TRef.binary_plain main_v1 main_call2_v0 main_call2_v1 _ _ _ _ _ _ _)
    (congrArg₂ List.cons (StableHlo.TRef.nullary_plain main_call2_c_0 _ _ _)
    (congrArg₂ List.cons (StableHlo.TRef.unary_plain main_call2_c_0 main_call2_v2 _ _ _ _ _)
    (congrArg₂ List.cons (StableHlo.TRef.binary_plain main_v1 main_call2_v2 main_call2_v3 _ _ _ _ _ _ _)
    (congrArg₂ List.cons (StableHlo.TRef.ternary_plain main_call2_v1 main_call2_v3 main_v1 main_call2_v4 _ _ _ _ _ _ _ _ _)
    (congrArg₂ List.cons (StableHlo.TRef.unary_plain main_call2_v4 main_call2_v5 _ _ _ _ _)
    (congrArg₂ List.cons (StableHlo.TRef.nullary_plain main_call2_c_1 _ _ _)
    (congrArg₂ List.cons (StableHlo.TRef.nullary_plain main_call2_c_2 _ _ _)
    (congrArg₂ List.cons (StableHlo.TRef.unary_plain main_call2_c_2 main_call2_v6 _ _ _ _ _)
    (congrArg₂ List.cons (StableHlo.TRef.binary_plain main_call2_v5 main_call2_v6 main_call2_v7 _ _ _ _ _ _ _)
    (congrArg₂ List.cons (StableHlo.TRef.unary_plain main_call2_c_1 main_call2_v8 _ _ _ _ _)
    (congrArg₂ List.cons (StableHlo.TRef.unary_plain main_call2_v8 main_call2_v9 _ _ _ _ _)
    (congrArg₂ List.cons (StableHlo.TRef.binary_plain main_call2_v5 main_call2_v9 main_call2_v10 _ _ _ _ _ _ _)
    (congrArg₂ List.cons (StableHlo.TRef.binary_plain main_call2_v7 main_call2_v10 main_call2_v11 _ _ _ _ _ _ _)
    (congrArg₂ List.cons (StableHlo.TRef.nullary_plain main_call2_c_3 _ _ _)
    (congrArg₂ List.cons (StableHlo.TRef.binary_plain main_call2_v11 main_call2_c_3 main_call2_v12 _ _ _ _ _ _ _)
    (congrArg₂ List.cons (StableHlo.TRef.binary_plain main_v51 main_call2_v5 main_call2_v13 _ _ _ _ _ _ _)
    (congrArg₂ List.cons (StableHlo.TRef.unary_plain main_call2_v12 main_call2_v14 _ _ _ _ _)
    (congrArg₂ List.cons (StableHlo.TRef.nullary_plain main_call2_cst _ _ _)
    (congrArg₂ List.cons (StableHlo.TRef.unary_plain main_call2_cst main_call2_v15 _ _ _ _ _)
    (congrArg₂ List.cons (StableHlo.TRef.ternary_plain main_call2_v14 main_call2_v13 main_call2_v15 main_v52 _ _ _ _ _ _ _ _ _)
    (rfl)))))))))))))))))))))))

end Cert.KernelIdeal.Chain

end
-- ==== Proof.R1.lean ====
import proofs.«407668_j26396869001791_1_alg».proof.Proof.Gen.KernelIdeal.Frame
import proofs.«407668_j26396869001791_1_alg».proof.Proof.GnnLinear
import Idealize.ShloMosaic.Lib.Tactic

set_option maxRecDepth 16384

noncomputable section

open scoped BigOperators

namespace Cert.KernelIdeal.R1

open Cert.KernelIdeal Cert.KernelIdeal.Gen Cert.KernelIdeal.Lin GinSpec
open Idealize.ShloMosaic Idealize.ShloMosaic.TcCoe Idealize.ShloMosaic.ValueIdx Idealize.SL.Sem
open Idealize.ShloMosaic.Pipeline (Dat)

section Pieces
variable {F : FTy → Type} [FloatOps F] (c : Dev nD) (i : grid1.Coords)
  (a1 : Memref sig .tc .vmem S2000x128 .f32) (h1 : a1.IsWhole) (a2 : Memref sig .tc .vmem S2000x128 .f32) (h2 : a2.IsWhole)
  (a3 : Memref sig .tc .vmem S128x128 .f32) (h3 : a3.IsWhole) (a4 : Memref sig .tc .vmem S1x128 .f32) (h4 : a4.IsWhole)
  (a5 : Memref sig .tc .vmem S2000x128 .f32) (h5 : a5.IsWhole) (a6 : Memref sig .tc .vmem S1x128 .f32) (h6 : a6.IsWhole)
  (a7 : Memref sig .tc .vmem S1x128 .f32) (h7 : a7.IsWhole)
  (x0 x1 : Vec F S2000x128 .f32) (x2 : Vec F S128x128 .f32) (x3 s5 s6 : Vec F S1x128 .f32)

/-- At the first point the three results are the step over zero rows. -/
theorem pieces_first (hc : cond1_0 i) :
    (out1_A_4 c i a1 h1 a2 h2 a3 h3 a4 h4 a5 h5 a6 h6 a7 h7 hc x0 x1 x2 x3, out1_A_5 c i a1 h1 a2 h2 a3 h3 a4 h4 a5 h5 a6 h6 a7 h7 hc x0 x1 x2 x3, out1_A_6 c i a1 h1 a2 h2 a3 h3 a4 h4 a5 h5 a6 h6 a7 h7 hc x0 x1 x2 x3)
      = stepOf x0 x1 x2 x3 (k1_pay1 (F := F)) (k1_pay2 (F := F)) := by
  unfold stepOf out1_A_4 out1_A_5 out1_A_6
  refine congrArg₂ Prod.mk ?_ (congrArg₂ Prod.mk ?_ ?_)
  on_goal 1 => rw [View.read_writes_eq_canon _ _ _ (cover1_A_4 c i a1 h1 a2 h2 a3 h3 a4 h4 a5 h5 a6 h6 a7 h7 hc x0 x1 x2 x3)]
  on_goal 2 => rw [View.read_writes_eq_canon _ _ _ (cover1_A_5 c i a1 h1 a2 h2 a3 h3 a4 h4 a5 h5 a6 h6 a7 h7 hc x0 x1 x2 x3)]
  on_goal 3 => rw [View.read_writes_eq_canon _ _ _ (cover1_A_6 c i a1 h1 a2 h2 a3 h3 a4 h4 a5 h5 a6 h6 a7 h7 hc x0 x1 x2 x3)]
  all_goals
    unfold kernelRun1_A
    dsimp only
    sl_unfold_words
    first
      | rw [View.canon_unit_zero noOffset]
      | rw [View.canon_cons_unit_zero (S := S1x128) noOffset, View.readCov_unit_zero (S := S1x128) _ noOffset]
    simp only [View.readAt_eq_ld, h1.read_unread, h2.read_unread, h3.read_unread, h4.read_unread, h6.read_unread, h7.read_unread,
      View.ld_unit_zero (S := S2000x128) noOffset, View.ld_unit_zero (S := S128x128) noOffset, View.ld_unit_zero (S := S1x128) noOffset] <;> rfl

/-- At a later point they are the step over the two rows as the point before left them. -/
theorem pieces_later (hc : ¬cond1_0 i) :
    (out1_B_4 c i a1 h1 a2 h2 a3 h3 a4 h4 a5 h5 a6 h6 a7 h7 hc x0 x1 x2 x3 s5 s6, out1_B_5 c i a1 h1 a2 h2 a3 h3 a4 h4 a5 h5 a6 h6 a7 h7 hc x0 x1 x2 x3 s5 s6, out1_B_6 c i a1 h1 a2 h2 a3 h3 a4 h4 a5 h5 a6 h6 a7 h7 hc x0 x1 x2 x3 s5 s6)
      = stepOf x0 x1 x2 x3 s5 s6 := by
  unfold stepOf out1_B_4 out1_B_5 out1_B_6
  refine congrArg₂ Prod.mk ?_ (congrArg₂ Prod.mk ?_ ?_)
  on_goal 1 => rw [View.read_writes_eq_canon _ _ _ (cover1_B_4 c i a1 h1 a2 h2 a3 h3 a4 h4 a5 h5 a6 h6 a7 h7 hc x0 x1 x2 x3 s5 s6)]
  on_goal 2 => rw [View.read_writes_eq_canon _ _ _ (cover1_B_5 c i a1 h1 a2 h2 a3 h3 a4 h4 a5 h5 a6 h6 a7 h7 hc x0 x1 x2 x3 s5 s6)]
  on_goal 3 => rw [View.read_writes_eq_canon _ _ _ (cover1_B_6 c i a1 h1 a2 h2 a3 h3 a4 h4 a5 h5 a6 h6 a7 h7 hc x0 x1 x2 x3 s5 s6)]
  all_goals
    unfold kernelRun1_B
    dsimp only
    sl_unfold_words
    first
      | rw [View.canon_unit_zero noOffset]
      | rw [View.canon_cons_unit_zero (S := S1x128) noOffset, View.readCov_unit_zero (S := S1x128) _ noOffset]
    simp only [View.readAt_eq_ld, h1.read_unread, h2.read_unread, h3.read_unread, h4.read_unread, h6.read_unread, h7.read_unread,
      View.ld_unit_zero (S := S2000x128) noOffset, View.ld_unit_zero (S := S128x128) noOffset, View.ld_unit_zero (S := S1x128) noOffset] <;> rfl

end Pieces

variable (V : (c : Dev nD) → (b : Ref sig .tc) → Buf (Elt Ideal) ((c : Thread nD τ).loc b))

/-- The pre-activation of the region's four input arrays (h, agg, w, b). -/
abbrev zOf (c : Dev nD) : Arr ND :=
  gnnZ (V c (Pipeline.arrRef spec1 0)) (V c (Pipeline.arrRef spec1 1)) (V c (Pipeline.arrRef spec1 2)) (V c (Pipeline.arrRef spec1 3))

theorem blockIndex : ∀ t : Fin cfg1.N, (cfg1.win 0).index t ⟨0, by decide⟩ = t.val ∧ (cfg1.win 0).index t ⟨1, by decide⟩ = 0
    ∧ (cfg1.win 1).index t ⟨0, by decide⟩ = t.val ∧ (cfg1.win 1).index t ⟨1, by decide⟩ = 0 ∧ (cfg1.win 2).index t ⟨0, by decide⟩ = 0 ∧ (cfg1.win 2).index t ⟨1, by decide⟩ = 0
    ∧ (cfg1.win 3).index t ⟨0, by decide⟩ = 0 ∧ (cfg1.win 3).index t ⟨1, by decide⟩ = 0 ∧ (cfg1.win 4).index t ⟨0, by decide⟩ = t.val ∧ (cfg1.win 4).index t ⟨1, by decide⟩ = 0
    ∧ (cfg1.win 5).index t ⟨0, by decide⟩ = 0 ∧ (cfg1.win 5).index t ⟨1, by decide⟩ = 0 ∧ (cfg1.win 6).index t ⟨0, by decide⟩ = 0 ∧ (cfg1.win 6).index t ⟨1, by decide⟩ = 0 :=
  (by decide +kernel : ∀ t : Fin grid1.N, _)

/-- The z payload of point t's four blocks is rows 2000·t … of z: a block's entry sits in its array at block index ×
    block size + the coordinate inside the block. -/
theorem zblk_apply (c : Dev nD) (t : Fin cfg1.N) (r : Fin 2000) (q : Fin 128) :
    k1_pay3 (F := Ideal) (iblk1 V c 0 t) (iblk1 V c 1 t) (iblk1 V c 2 t) (iblk1 V c 3 t) (ix2 r q) = zOf V c (ix2 (rowAt t.val r) q) := by
  obtain ⟨a0, a1, b0, b1, c0, c1, d0, d1, -⟩ := blockIndex t
  have hp := rowAt_val t.val (t.isLt.trans_eq N_1) r
  refine (zPayload_apply (iblk1 V c 0 t) (iblk1 V c 1 t) (iblk1 V c 2 t) (iblk1 V c 3 t) r q).trans (Eq.trans ?_ (affine_apply _ _ _ (rowAt t.val r) q).symm)
  refine congrArg₂ (· + ·) (Finset.sum_congr rfl fun k _ => congrArg₂ (· * ·) (congrArg₂ (· + ·) ?_ ?_) ?_) ?_
  iterate 2
    exact congrArg (V c _) (funext fun a => Fin.ext (by
      match a with
      | ⟨0, _⟩ => show _ * 2000 + 1 * r.val = (rowAt t.val r).val; omega
      | ⟨1, _⟩ => show _ * 128 + 1 * k.val = k.val; omega))
  · exact congrArg (V c _) (funext fun a => Fin.ext (by
      match a with
      | ⟨0, _⟩ => show _ * 128 + 1 * k.val = k.val; omega
      | ⟨1, _⟩ => show _ * 128 + 1 * q.val = q.val; omega))
  · exact congrArg (V c _) (funext fun a => Fin.ext (by
      match a with
      | ⟨0, _⟩ => show _ * 1 + 1 * 0 = 0; omega
      | ⟨1, _⟩ => show _ * 128 + 1 * q.val = q.val; omega))

theorem step_first (c : Dev nD) (t : Fin cfg1.N) (h0 : t.val % 25 = 0) :
    outsAt1 (F := Ideal) V c t.val t.isLt = stepOf (iblk1 V c 0 t) (iblk1 V c 1 t) (iblk1 V c 2 t) (iblk1 V c 3 t) (k1_pay1 (F := Ideal)) (k1_pay2 (F := Ideal)) :=
  (outsAt1_A V c t h0).trans (pieces_first (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) ((hcond1_0 t).mpr h0))

theorem step_later (c : Dev nD) (t : Fin cfg1.N) (h0 : ¬t.val % 25 = 0) :
    outsAt1 (F := Ideal) V c t.val t.isLt = stepOf (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2 :=
  (outsAt1_B V c t h0).trans (pieces_later (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h)))

/-- Point t's block of the first result is block t of z. -/
theorem flushed_4 (c : Dev nD) (t : Fin cfg1.N) :
    (dat1 (F := Ideal) V c).flushed 4 t = ((cfg1.win 4).blk t).view.read (Elt Ideal) (zOf V c) := by
  show (cfg1.win 4).cut (grid1.coords t) ((dat1 (F := Ideal) V c).after 4 t) = _
  rw [after1_4, show (outsAt1 (F := Ideal) V c t.val t.isLt).1 = k1_pay3 (iblk1 V c 0 t) (iblk1 V c 1 t) (iblk1 V c 2 t) (iblk1 V c 3 t) from by
    by_cases h0 : t.val % 25 = 0
    · rw [step_first V c t h0]; rfl
    · rw [step_later V c t h0]; rfl]
  obtain ⟨-, -, -, -, -, -, -, -, e0, e1, -⟩ := blockIndex t
  have hp := rowAt_val t.val (t.isLt.trans_eq N_1)
  funext j
  obtain ⟨r, q, rfl⟩ : ∃ (r : Fin 2000) (q : Fin 128), j = ix2 r q := ⟨j 0, j 1, eq_ix2 j⟩
  refine (zblk_apply V c t r q).trans ?_
  show zOf V c (ix2 (rowAt t.val r) q) = zOf V c (((cfg1.win 4).blk t).view.emb (ix2 r q))
  refine congrArg _ (funext fun a => Fin.ext ?_)
  match a with
  | ⟨0, _⟩ => show (rowAt t.val r).val = _ * 2000 + 1 * r.val; have := hp r; omega
  | ⟨1, _⟩ => show q.val = _ * 128 + 1 * q.val; omega

/-- After the region its first output array is z: row p lies in the block of point p / 2000. -/
theorem z_eq (c : Dev nD) : (dat1 (F := Ideal) V c).arrAt 4 cfg1.N = zOf V c :=
  (dat1 (F := Ideal) V c).arrAt_eq_of_cover 4 _ (fun t _ => flushed_4 V c t) fun i => by
    have h0 : (i 0).val < 50000 := (i 0).isLt
    have h1 : (i 1).val < 128 := (i 1).isLt
    have hN : cfg1.N = 25 := N_1
    let t : Fin cfg1.N := ⟨(i 0).val / 2000, by rw [hN]; omega⟩
    obtain ⟨-, -, -, -, -, -, -, -, e0, e1, -⟩ := blockIndex t
    have ht : t.val = (i 0).val / 2000 := rfl
    refine ⟨t, flush1_4 t, ?_⟩
    show i ∈ ((View.whole main_v15_0).slice ((cfg1.win 4).rect t)).set
    rw [View.set_slice_whole, Rect.mem_set_unit]
    intro a
    match a with
    | ⟨0, _⟩ => show _ * 2000 ≤ (i 0).val ∧ (i 0).val < _ * 2000 + 2000; omega
    | ⟨1, _⟩ => show _ * 128 ≤ (i 1).val ∧ (i 1).val < _ * 128 + 128; omega

/-- At the last point the two rows hold the column sums of z and of z² over all 50000 rows. -/
theorem rows_at_last (c : Dev nD) (t : Fin cfg1.N) (ht : t.val = 24) :
    (outsAt1 (F := Ideal) V c t.val t.isLt).2.1 = colSum (zOf V c)
    ∧ (outsAt1 (F := Ideal) V c t.val t.isLt).2.2 = colSum (sq (zOf V c)) := by
  exact sums_of_steps (outsAt1 (F := Ideal) V c) (fun n h => iblk1 V c 0 ⟨n, h⟩) (fun n h => iblk1 V c 1 ⟨n, h⟩)
    (fun n h => iblk1 V c 2 ⟨n, h⟩) (fun n h => iblk1 V c 3 ⟨n, h⟩) (zOf V c)
    (fun n h r q => zblk_apply V c ⟨n, h⟩ r q) (fun h => step_first V c ⟨0, h⟩ rfl)
    (fun n h => step_later V c ⟨n + 1, h⟩ (by have := h.trans_eq N_1; show ¬(n + 1) % 25 = 0; omega)) t.val t.isLt ht

abbrev lastPoint : Fin cfg1.N := ⟨24, by rw [show cfg1.N = 25 from N_1]; decide⟩

theorem flushed_5 (c : Dev nD) (t : Fin cfg1.N) (hf : (cfg1.win 5).flush t = true) :
    (dat1 (F := Ideal) V c).flushed 5 t = ((cfg1.win 5).blk t).view.read (Elt Ideal) (colSum (zOf V c)) := by
  have hN : t.val < 25 := t.isLt.trans_eq N_1
  have h24 : t.val = 24 := by have := (flush1_5 t).mp hf; omega
  obtain ⟨-, -, -, -, -, -, -, -, -, -, e0, e1, -⟩ := blockIndex t
  have hz' : (fun a => (cfg1.win 5).index t a * main_v15_1.ty.shape.size a) = fun _ => 0 := funext fun a => by
    match a with
    | ⟨0, _⟩ => show (cfg1.win 5).index t ⟨0, by decide⟩ * _ = 0; rw [e0, Nat.zero_mul]
    | ⟨1, _⟩ => show (cfg1.win 5).index t ⟨1, by decide⟩ * _ = 0; rw [e1, Nat.zero_mul]
  show (cfg1.win 5).cut (grid1.coords t) ((dat1 V c).after 5 t) = _
  rw [after1_5]
  exact ((rows_at_last V c t h24).1).trans (Memref.read_access_unit_zero (Elt Ideal) main_v15_1 hz' (fun a => by rw [congrFun hz' a]; simp) _).symm

theorem cover_5 (i : S1x128.Idx) :
    ∃ t : Fin cfg1.N, (cfg1.win 5).flush t = true ∧ i ∈ ((cfg1.win 5).blk t).view.set := by
  obtain ⟨-, -, -, -, -, -, -, -, -, -, e0, e1, -⟩ := blockIndex lastPoint
  refine ⟨lastPoint, (flush1_5 lastPoint).mpr rfl, ?_⟩
  show i ∈ ((View.whole main_v15_1).slice ((cfg1.win 5).rect lastPoint)).set
  rw [View.set_slice_whole, Rect.mem_set_unit]
  intro a
  have h0 : (i 0).val < 1 := (i 0).isLt
  have h1 : (i 1).val < 128 := (i 1).isLt
  match a with
  | ⟨0, _⟩ => show _ * 1 ≤ (i 0).val ∧ (i 0).val < _ * 1 + 1; omega
  | ⟨1, _⟩ => show _ * 128 ≤ (i 1).val ∧ (i 1).val < _ * 128 + 128; omega

theorem flushed_6 (c : Dev nD) (t : Fin cfg1.N) (hf : (cfg1.win 6).flush t = true) :
    (dat1 (F := Ideal) V c).flushed 6 t = ((cfg1.win 6).blk t).view.read (Elt Ideal) (colSum (sq (zOf V c))) := by
  have hN : t.val < 25 := t.isLt.trans_eq N_1
  have h24 : t.val = 24 := by have := (flush1_6 t).mp hf; omega
  obtain ⟨-, -, -, -, -, -, -, -, -, -, -, -, e0, e1⟩ := blockIndex t
  have hz' : (fun a => (cfg1.win 6).index t a * main_v15_2.ty.shape.size a) = fun _ => 0 := funext fun a => by
    match a with
    | ⟨0, _⟩ => show (cfg1.win 6).index t ⟨0, by decide⟩ * _ = 0; rw [e0, Nat.zero_mul]
    | ⟨1, _⟩ => show (cfg1.win 6).index t ⟨1, by decide⟩ * _ = 0; rw [e1, Nat.zero_mul]
  show (cfg1.win 6).cut (grid1.coords t) ((dat1 V c).after 6 t) = _
  rw [after1_6]
  exact ((rows_at_last V c t h24).2).trans (Memref.read_access_unit_zero (Elt Ideal) main_v15_2 hz' (fun a => by rw [congrFun hz' a]; simp) _).symm

theorem cover_6 (i : S1x128.Idx) :
    ∃ t : Fin cfg1.N, (cfg1.win 6).flush t = true ∧ i ∈ ((cfg1.win 6).blk t).view.set := by
  obtain ⟨-, -, -, -, -, -, -, -, -, -, -, -, e0, e1⟩ := blockIndex lastPoint
  refine ⟨lastPoint, (flush1_6 lastPoint).mpr rfl, ?_⟩
  show i ∈ ((View.whole main_v15_2).slice ((cfg1.win 6).rect lastPoint)).set
  rw [View.set_slice_whole, Rect.mem_set_unit]
  intro a
  have h0 : (i 0).val < 1 := (i 0).isLt
  have h1 : (i 1).val < 128 := (i 1).isLt
  match a with
  | ⟨0, _⟩ => show _ * 1 ≤ (i 0).val ∧ (i 0).val < _ * 1 + 1; omega
  | ⟨1, _⟩ => show _ * 128 ≤ (i 1).val ∧ (i 1).val < _ * 128 + 128; omega

/-- After the region its second and third output arrays are the column sums of z and of z². -/
theorem sum_eq (c : Dev nD) : (dat1 (F := Ideal) V c).arrAt 5 cfg1.N = colSum (zOf V c) :=
  (dat1 (F := Ideal) V c).arrAt_eq_of_cover 5 _ (flushed_5 V c) cover_5
theorem sumsq_eq (c : Dev nD) : (dat1 (F := Ideal) V c).arrAt 6 cfg1.N = colSum (sq (zOf V c)) :=
  (dat1 (F := Ideal) V c).arrAt_eq_of_cover 6 _ (flushed_6 V c) cover_6

end Cert.KernelIdeal.R1

end
-- ==== Proof.R2.lean ====
import proofs.«407668_j26396869001791_1_alg».proof.Proof.Gen.KernelIdeal.Frame
import proofs.«407668_j26396869001791_1_alg».proof.Proof.GnnLinear
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.R2

open Cert.KernelIdeal Cert.KernelIdeal.Gen Cert.KernelIdeal.Lin GinSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem blockPositions : ∀ t : Fin cfg2.N,
    (cfg2.win 0).index t ⟨0, by decide⟩ = t.val ∧ (cfg2.win 0).index t ⟨1, by decide⟩ = 0
    ∧ (cfg2.win 1).index t ⟨0, by decide⟩ = 0 ∧ (cfg2.win 1).index t ⟨1, by decide⟩ = 0 ∧ (cfg2.win 2).index t ⟨0, by decide⟩ = 0 ∧ (cfg2.win 2).index t ⟨1, by decide⟩ = 0
    ∧ (cfg2.win 3).index t ⟨0, by decide⟩ = 0 ∧ (cfg2.win 3).index t ⟨1, by decide⟩ = 0 ∧ (cfg2.win 4).index t ⟨0, by decide⟩ = 0 ∧ (cfg2.win 4).index t ⟨1, by decide⟩ = 0
    ∧ (cfg2.win 5).index t ⟨0, by decide⟩ = t.val ∧ (cfg2.win 5).index t ⟨1, by decide⟩ = 0 :=
  (by decide +kernel : ∀ t : Fin grid2.N, _)

theorem zRows (c : Dev nD) (t : Fin cfg2.N) (r : Fin 2000) (q : Fin 128) (k : Fin 50000)
    (hk : k.val = 2000 * t.val + r.val) :
    (iblk2 V c 0 t : Vec Ideal S2000x128 .f32) (ix2 r q) = (V c (Pipeline.arrRef spec2 0) : Arr ND) (ix2 k q) := by
  obtain ⟨e0, e1, -⟩ := blockPositions t
  unfold iblk2
  rw [View.read_apply]
  show V c (Pipeline.arrRef spec2 0) _ = V c (Pipeline.arrRef spec2 0) _
  congr 1
  funext a; apply Fin.ext
  match a with
  | ⟨0, _⟩ => show _ * 2000 + 1 * r.val = k.val; omega
  | ⟨1, _⟩ => show _ * 128 + 1 * q.val = q.val; omega

theorem meanRow (c : Dev nD) (t : Fin cfg2.N) (q : Fin 128) :
    (iblk2 V c 1 t : Vec Ideal S1x128 .f32) (ix2 0 q) = (V c (Pipeline.arrRef spec2 1) : Arr OD) (ix2 0 q) := by
  obtain ⟨-, -, e0, e1, -⟩ := blockPositions t
  unfold iblk2
  rw [View.read_apply]
  show V c _ _ = V c _ _
  congr 1
  funext a; apply Fin.ext
  match a with
  | ⟨0, _⟩ => show _ * 1 + 1 * 0 = 0; omega
  | ⟨1, _⟩ => show _ * 128 + 1 * q.val = q.val; omega

theorem varRow (c : Dev nD) (t : Fin cfg2.N) (q : Fin 128) :
    (iblk2 V c 2 t : Vec Ideal S1x128 .f32) (ix2 0 q) = (V c (Pipeline.arrRef spec2 2) : Arr OD) (ix2 0 q) := by
  obtain ⟨-, -, -, -, e0, e1, -⟩ := blockPositions t
  unfold iblk2
  rw [View.read_apply]
  show V c _ _ = V c _ _
  congr 1
  funext a; apply Fin.ext
  match a with
  | ⟨0, _⟩ => show _ * 1 + 1 * 0 = 0; omega
  | ⟨1, _⟩ => show _ * 128 + 1 * q.val = q.val; omega

theorem scaleRow (c : Dev nD) (t : Fin cfg2.N) (q : Fin 128) :
    (iblk2 V c 3 t : Vec Ideal S1x128 .f32) (ix2 0 q) = (V c (Pipeline.arrRef spec2 3) : Arr OD) (ix2 0 q) := by
  obtain ⟨-, -, -, -, -, -, e0, e1, -⟩ := blockPositions t
  unfold iblk2
  rw [View.read_apply]
  show V c _ _ = V c _ _
  congr 1
  funext a; apply Fin.ext
  match a with
  | ⟨0, _⟩ => show _ * 1 + 1 * 0 = 0; omega
  | ⟨1, _⟩ => show _ * 128 + 1 * q.val = q.val; omega

theorem shiftRow (c : Dev nD) (t : Fin cfg2.N) (q : Fin 128) :
    (iblk2 V c 4 t : Vec Ideal S1x128 .f32) (ix2 0 q) = (V c (Pipeline.arrRef spec2 4) : Arr OD) (ix2 0 q) := by
  obtain ⟨-, -, -, -, -, -, -, -, e0, e1, -⟩ := blockPositions t
  unfold iblk2
  rw [View.read_apply]
  show V c _ _ = V c _ _
  congr 1
  funext a; apply Fin.ext
  match a with
  | ⟨0, _⟩ => show _ * 1 + 1 * 0 = 0; omega
  | ⟨1, _⟩ => show _ * 128 + 1 * q.val = q.val; omega

theorem outRows (G : Arr ND) (c : Dev nD) (t : Fin cfg2.N) (r : Fin 2000) (q : Fin 128) (k : Fin 50000)
    (hk : k.val = 2000 * t.val + r.val) :
    (((cfg2.win 5).blk t).view.read (Elt Ideal) G : Vec Ideal S2000x128 .f32) (ix2 r q) = G (ix2 k q) := by
  obtain ⟨-, -, -, -, -, -, -, -, -, -, e0, e1⟩ := blockPositions t
  rw [View.read_apply]
  show G _ = G _
  congr 1
  funext a; apply Fin.ext
  match a with
  | ⟨0, _⟩ => show _ * 2000 + 1 * r.val = k.val; omega
  | ⟨1, _⟩ => show _ * 128 + 1 * q.val = q.val; omega

theorem writeBack_eq (c : Dev nD) (t : Fin cfg2.N) :
    (dat2 (F := Ideal) V c).flushed 5 t
      = ((cfg2.win 5).blk t).view.read (Elt Ideal)
          (bn (V c (Pipeline.arrRef spec2 0)) (V c (Pipeline.arrRef spec2 1)) (V c (Pipeline.arrRef spec2 2))
            (V c (Pipeline.arrRef spec2 3)) (V c (Pipeline.arrRef spec2 4))) := by
  show (cfg2.win 5).cut (grid2.coords t) ((dat2 V c).after 5 t) = _
  rw [after2_5]
  unfold out2_5
  rw [View.canon_unit_zero noOffset]
  simp only [View.ld_unit_zero (S := S2000x128) noOffset, View.ld_unit_zero (S := S1x128) noOffset]
  funext j
  obtain ⟨r, q, rfl⟩ : ∃ (r : Fin 2000) (q : Fin 128), j = ix2 r q := ⟨j 0, j 1, eq_ix2 j⟩
  have ht : t.val < 25 := t.isLt.trans_eq N_2
  have hk : 2000 * t.val + r.val < 50000 := by have := r.isLt; omega
  refine (bnBody_apply (iblk2 V c 0 t) (iblk2 V c 2 t) (iblk2 V c 1 t) (iblk2 V c 3 t) (iblk2 V c 4 t) r q).trans ?_
  refine Eq.trans ?_ ((outRows _ c t r q ⟨_, hk⟩ rfl).trans (bn_apply _ _ _ _ _ ⟨_, hk⟩ q)).symm
  exact bn_congr (zRows V c t r q ⟨_, hk⟩ rfl) (meanRow V c t q) (varRow V c t q) (scaleRow V c t q) (shiftRow V c t q)

theorem out_eq (c : Dev nD) :
    (dat2 (F := Ideal) V c).arrAt 5 cfg2.N
      = bn (V c (Pipeline.arrRef spec2 0)) (V c (Pipeline.arrRef spec2 1)) (V c (Pipeline.arrRef spec2 2))
          (V c (Pipeline.arrRef spec2 3)) (V c (Pipeline.arrRef spec2 4)) :=

  (dat2 (F := Ideal) V c).arrAt_eq_of_cover 5 _ (fun t _ => writeBack_eq V c t) fun i => by
    have h0 : (i 0).val < 50000 := (i 0).isLt
    have h1 : (i 1).val < 128 := (i 1).isLt
    have hN : cfg2.N = 25 := N_2
    let t : Fin cfg2.N := ⟨(i 0).val / 2000, by rw [hN]; omega⟩
    obtain ⟨-, -, -, -, -, -, -, -, -, -, e0, e1⟩ := blockPositions t
    have ht : t.val = (i 0).val / 2000 := rfl
    refine ⟨t, flush2_5 t, ?_⟩
    show i ∈ ((View.whole main_v28).slice ((cfg2.win 5).rect t)).set
    rw [View.set_slice_whole, Rect.mem_set_unit]
    intro a
    match a with
    | ⟨0, _⟩ => show _ * 2000 ≤ (i 0).val ∧ (i 0).val < _ * 2000 + 2000; omega
    | ⟨1, _⟩ => show _ * 128 ≤ (i 1).val ∧ (i 1).val < _ * 128 + 128; omega

end Cert.KernelIdeal.R2

end
-- ==== Proof.KLayer1.lean ====
import proofs.«407668_j26396869001791_1_alg».proof.Proof.KNames
import proofs.«407668_j26396869001791_1_alg».proof.Proof.KStage0
import proofs.«407668_j26396869001791_1_alg».proof.Proof.KTake
import proofs.«407668_j26396869001791_1_alg».proof.Proof.R1
import proofs.«407668_j26396869001791_1_alg».proof.Proof.R2
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Agg GinSpec
open Idealize.ShloMosaic Idealize.ShloMosaic.TcCoe Idealize.SL.Sem Idealize.ShloMosaic.StableHlo

variable (m : (ℓ : Loc nD τ sig) → Buf (Elt Ideal) ℓ) (ρ : Dev nD → PrngReg)

def pre1 (c : Dev nD) : Arr ND :=
  gnnZ (table0 m c) (aggFill (edges m c) (table0 m c))
    (weightsAt (m ((c : Thread nD τ).loc main_arg4)) ![0, 0, 0] slices_S3x128x128_S1x128x128_0_0_0)
    (rowAt (m ((c : Thread nD τ).loc main_arg5)) ![0, 0] slices_S3x128_S1x128_0_0)

theorem src_in1 (c : Dev nD) : W2 m ρ c (Proc.devRef .tc main_v1) = srcOf (edges m c) := by
  repeat wstep
  try rfl
theorem dst_in1 (c : Dev nD) : W2 m ρ c (Proc.devRef .tc main_v3) = dstOf (edges m c) := by
  repeat wstep
  try rfl

theorem in1_0 (c : Dev nD) : V4 m ρ c (Pipeline.arrRef spec1 0) = table0 m c := by
  show W4 m ρ c (Proc.devRef .tc main_v5) = _
  wstep
  exact exit0 m ρ c

theorem in1_1 (c : Dev nD) : V4 m ρ c (Pipeline.arrRef spec1 1) = aggFill (edges m c) (table0 m c) := by
  show W4 m ρ c (Proc.devRef .tc main_v9) = _
  dsimp only [W4, W3]
  rw [hostOps1_eq]
  after_results_simp
  rw [exit0 m ρ c, src_in1 m ρ c, dst_in1 m ρ c]
  rfl

theorem in1_2 (c : Dev nD) : V4 m ρ c (Pipeline.arrRef spec1 2)
    = weightsAt (m ((c : Thread nD τ).loc main_arg4)) ![0, 0, 0] slices_S3x128x128_S1x128x128_0_0_0 := by
  show W4 m ρ c (Proc.devRef .tc main_v11) = _
  repeat wstep
  try rfl

theorem in1_3 (c : Dev nD) : V4 m ρ c (Pipeline.arrRef spec1 3)
    = rowAt (m ((c : Thread nD τ).loc main_arg5)) ![0, 0] slices_S3x128_S1x128_0_0 := by
  show W4 m ρ c (Proc.devRef .tc main_v14) = _
  repeat wstep
  try rfl

theorem entry1 (c : Dev nD) : R1.zOf (V4 m ρ) c = pre1 m c := by
  unfold R1.zOf pre1
  rw [in1_0 m ρ c, in1_1 m ρ c, in1_2 m ρ c, in1_3 m ρ c]

theorem exit1_z (c : Dev nD) : W5 m ρ c (Proc.devRef .tc main_v15_0) = pre1 m c :=
  (W5_arr m ρ c 4).trans ((R1.z_eq (V4 m ρ) c).trans (entry1 m ρ c))
theorem exit1_sum (c : Dev nD) : W5 m ρ c (Proc.devRef .tc main_v15_1) = colSum (pre1 m c) :=
  (W5_arr m ρ c 5).trans ((R1.sum_eq (V4 m ρ) c).trans (congrArg colSum (entry1 m ρ c)))
theorem exit1_sumsq (c : Dev nD) : W5 m ρ c (Proc.devRef .tc main_v15_2) = colSum (sq (pre1 m c)) :=
  (W5_arr m ρ c 6).trans ((R1.sumsq_eq (V4 m ρ) c).trans (congrArg (fun z => colSum (sq z)) (entry1 m ρ c)))

theorem in2_0 (c : Dev nD) : V6 m ρ c (Pipeline.arrRef spec2 0) = pre1 m c := by
  show W6 m ρ c (Proc.devRef .tc main_v15_0) = _
  wstep
  exact exit1_z m ρ c
theorem in2_1 (c : Dev nD) : V6 m ρ c (Pipeline.arrRef spec2 1) = overN (colSum (pre1 m c)) := by
  show W6 m ρ c (Proc.devRef .tc main_v17) = _
  wstep
  rw [exit1_sum m ρ c]
  rfl
theorem in2_2 (c : Dev nD) : V6 m ρ c (Pipeline.arrRef spec2 2)
    = varOfMoments (colSum (sq (pre1 m c))) (overN (colSum (pre1 m c))) := by
  show W6 m ρ c (Proc.devRef .tc main_v21) = _
  wstep
  rw [exit1_sumsq m ρ c, exit1_sum m ρ c]
  rfl
theorem in2_3 (c : Dev nD) : V6 m ρ c (Pipeline.arrRef spec2 3)
    = rowAt (m ((c : Thread nD τ).loc main_arg6)) ![0, 0] slices_S3x128_S1x128_0_0 := by
  show W6 m ρ c (Proc.devRef .tc main_v26) = _
  repeat wstep
  try rfl
theorem in2_4 (c : Dev nD) : V6 m ρ c (Pipeline.arrRef spec2 4)
    = rowAt (m ((c : Thread nD τ).loc main_arg7)) ![0, 0] slices_S3x128_S1x128_0_0 := by
  show W6 m ρ c (Proc.devRef .tc main_v27) = _
  repeat wstep
  try rfl

theorem exit2 (c : Dev nD) : W7 m ρ c (Proc.devRef .tc main_v28) = table1 m c := by
  refine (W7_arr m ρ c 5).trans ?_
  rw [R2.out_eq, in2_0 m ρ c, in2_1 m ρ c, in2_2 m ρ c, in2_3 m ρ c, in2_4 m ρ c]
  rfl

end Cert.KernelIdeal.Chain

end
-- ==== Proof.R3.lean ====
import proofs.«407668_j26396869001791_1_alg».proof.Proof.Gen.KernelIdeal.Frame
import proofs.«407668_j26396869001791_1_alg».proof.Proof.GnnLinear
import Idealize.ShloMosaic.Lib.Tactic

set_option maxRecDepth 16384

noncomputable section

open scoped BigOperators

namespace Cert.KernelIdeal.R3

open Cert.KernelIdeal Cert.KernelIdeal.Gen Cert.KernelIdeal.Lin GinSpec
open Idealize.ShloMosaic Idealize.ShloMosaic.TcCoe Idealize.ShloMosaic.ValueIdx Idealize.SL.Sem
open Idealize.ShloMosaic.Pipeline (Dat)

section Pieces
variable {F : FTy → Type} [FloatOps F] (c : Dev nD) (i : grid3.Coords)
  (a1 : Memref sig .tc .vmem S2000x128 .f32) (h1 : a1.IsWhole) (a2 : Memref sig .tc .vmem S2000x128 .f32) (h2 : a2.IsWhole)
  (a3 : Memref sig .tc .vmem S128x128 .f32) (h3 : a3.IsWhole) (a4 : Memref sig .tc .vmem S1x128 .f32) (h4 : a4.IsWhole)
  (a5 : Memref sig .tc .vmem S2000x128 .f32) (h5 : a5.IsWhole) (a6 : Memref sig .tc .vmem S1x128 .f32) (h6 : a6.IsWhole)
  (a7 : Memref sig .tc .vmem S1x128 .f32) (h7 : a7.IsWhole)
  (x0 x1 : Vec F S2000x128 .f32) (x2 : Vec F S128x128 .f32) (x3 s5 s6 : Vec F S1x128 .f32)

/-- At the first point the three results are the step over zero rows. -/
theorem pieces_first (hc : cond3_0 i) :
    (out3_A_4 c i a1 h1 a2 h2 a3 h3 a4 h4 a5 h5 a6 h6 a7 h7 hc x0 x1 x2 x3, out3_A_5 c i a1 h1 a2 h2 a3 h3 a4 h4 a5 h5 a6 h6 a7 h7 hc x0 x1 x2 x3, out3_A_6 c i a1 h1 a2 h2 a3 h3 a4 h4 a5 h5 a6 h6 a7 h7 hc x0 x1 x2 x3)
      = stepOf x0 x1 x2 x3 (k1_pay1 (F := F)) (k1_pay2 (F := F)) := by
  unfold stepOf out3_A_4 out3_A_5 out3_A_6
  refine congrArg₂ Prod.mk ?_ (congrArg₂ Prod.mk ?_ ?_)
  on_goal 1 => rw [View.read_writes_eq_canon _ _ _ (cover3_A_4 c i a1 h1 a2 h2 a3 h3 a4 h4 a5 h5 a6 h6 a7 h7 hc x0 x1 x2 x3)]
  on_goal 2 => rw [View.read_writes_eq_canon _ _ _ (cover3_A_5 c i a1 h1 a2 h2 a3 h3 a4 h4 a5 h5 a6 h6 a7 h7 hc x0 x1 x2 x3)]
  on_goal 3 => rw [View.read_writes_eq_canon _ _ _ (cover3_A_6 c i a1 h1 a2 h2 a3 h3 a4 h4 a5 h5 a6 h6 a7 h7 hc x0 x1 x2 x3)]
  all_goals
    unfold kernelRun3_A
    dsimp only
    sl_unfold_words
    first
      | rw [View.canon_unit_zero noOffset]
      | rw [View.canon_cons_unit_zero (S := S1x128) noOffset, View.readCov_unit_zero (S := S1x128) _ noOffset]
    simp only [View.readAt_eq_ld, h1.read_unread, h2.read_unread, h3.read_unread, h4.read_unread, h6.read_unread, h7.read_unread,
      View.ld_unit_zero (S := S2000x128) noOffset, View.ld_unit_zero (S := S128x128) noOffset, View.ld_unit_zero (S := S1x128) noOffset] <;> rfl

/-- At a later point they are the step over the two rows as the point before left them. -/
theorem pieces_later (hc : ¬cond3_0 i) :
    (out3_B_4 c i a1 h1 a2 h2 a3 h3 a4 h4 a5 h5 a6 h6 a7 h7 hc x0 x1 x2 x3 s5 s6, out3_B_5 c i a1 h1 a2 h2 a3 h3 a4 h4 a5 h5 a6 h6 a7 h7 hc x0 x1 x2 x3 s5 s6, out3_B_6 c i a1 h1 a2 h2 a3 h3 a4 h4 a5 h5 a6 h6 a7 h7 hc x0 x1 x2 x3 s5 s6)
      = stepOf x0 x1 x2 x3 s5 s6 := by
  unfold stepOf out3_B_4 out3_B_5 out3_B_6
  refine congrArg₂ Prod.mk ?_ (congrArg₂ Prod.mk ?_ ?_)
  on_goal 1 => rw [View.read_writes_eq_canon _ _ _ (cover3_B_4 c i a1 h1 a2 h2 a3 h3 a4 h4 a5 h5 a6 h6 a7 h7 hc x0 x1 x2 x3 s5 s6)]
  on_goal 2 => rw [View.read_writes_eq_canon _ _ _ (cover3_B_5 c i a1 h1 a2 h2 a3 h3 a4 h4 a5 h5 a6 h6 a7 h7 hc x0 x1 x2 x3 s5 s6)]
  on_goal 3 => rw [View.read_writes_eq_canon _ _ _ (cover3_B_6 c i a1 h1 a2 h2 a3 h3 a4 h4 a5 h5 a6 h6 a7 h7 hc x0 x1 x2 x3 s5 s6)]
  all_goals
    unfold kernelRun3_B
    dsimp only
    sl_unfold_words
    first
      | rw [View.canon_unit_zero noOffset]
      | rw [View.canon_cons_unit_zero (S := S1x128) noOffset, View.readCov_unit_zero (S := S1x128) _ noOffset]
    simp only [View.readAt_eq_ld, h1.read_unread, h2.read_unread, h3.read_unread, h4.read_unread, h6.read_unread, h7.read_unread,
      View.ld_unit_zero (S := S2000x128) noOffset, View.ld_unit_zero (S := S128x128) noOffset, View.ld_unit_zero (S := S1x128) noOffset] <;> rfl

end Pieces

variable (V : (c : Dev nD) → (b : Ref sig .tc) → Buf (Elt Ideal) ((c : Thread nD τ).loc b))

/-- The pre-activation of the region's four input arrays (h, agg, w, b). -/
abbrev zOf (c : Dev nD) : Arr ND :=
  gnnZ (V c (Pipeline.arrRef spec3 0)) (V c (Pipeline.arrRef spec3 1)) (V c (Pipeline.arrRef spec3 2)) (V c (Pipeline.arrRef spec3 3))

theorem blockIndex : ∀ t : Fin cfg3.N, (cfg3.win 0).index t ⟨0, by decide⟩ = t.val ∧ (cfg3.win 0).index t ⟨1, by decide⟩ = 0
    ∧ (cfg3.win 1).index t ⟨0, by decide⟩ = t.val ∧ (cfg3.win 1).index t ⟨1, by decide⟩ = 0 ∧ (cfg3.win 2).index t ⟨0, by decide⟩ = 0 ∧ (cfg3.win 2).index t ⟨1, by decide⟩ = 0
    ∧ (cfg3.win 3).index t ⟨0, by decide⟩ = 0 ∧ (cfg3.win 3).index t ⟨1, by decide⟩ = 0 ∧ (cfg3.win 4).index t ⟨0, by decide⟩ = t.val ∧ (cfg3.win 4).index t ⟨1, by decide⟩ = 0
    ∧ (cfg3.win 5).index t ⟨0, by decide⟩ = 0 ∧ (cfg3.win 5).index t ⟨1, by decide⟩ = 0 ∧ (cfg3.win 6).index t ⟨0, by decide⟩ = 0 ∧ (cfg3.win 6).index t ⟨1, by decide⟩ = 0 :=
  (by decide +kernel : ∀ t : Fin grid3.N, _)

/-- The z payload of point t's four blocks is rows 2000·t … of z: a block's entry sits in its array at block index ×
    block size + the coordinate inside the block. -/
theorem zblk_apply (c : Dev nD) (t : Fin cfg3.N) (r : Fin 2000) (q : Fin 128) :
    k1_pay3 (F := Ideal) (iblk3 V c 0 t) (iblk3 V c 1 t) (iblk3 V c 2 t) (iblk3 V c 3 t) (ix2 r q) = zOf V c (ix2 (rowAt t.val r) q) := by
  obtain ⟨a0, a1, b0, b1, c0, c1, d0, d1, -⟩ := blockIndex t
  have hp := rowAt_val t.val (t.isLt.trans_eq N_3) r
  refine (zPayload_apply (iblk3 V c 0 t) (iblk3 V c 1 t) (iblk3 V c 2 t) (iblk3 V c 3 t) r q).trans (Eq.trans ?_ (affine_apply _ _ _ (rowAt t.val r) q).symm)
  refine congrArg₂ (· + ·) (Finset.sum_congr rfl fun k _ => congrArg₂ (· * ·) (congrArg₂ (· + ·) ?_ ?_) ?_) ?_
  iterate 2
    exact congrArg (V c _) (funext fun a => Fin.ext (by
      match a with
      | ⟨0, _⟩ => show _ * 2000 + 1 * r.val = (rowAt t.val r).val; omega
      | ⟨1, _⟩ => show _ * 128 + 1 * k.val = k.val; omega))
  · exact congrArg (V c _) (funext fun a => Fin.ext (by
      match a with
      | ⟨0, _⟩ => show _ * 128 + 1 * k.val = k.val; omega
      | ⟨1, _⟩ => show _ * 128 + 1 * q.val = q.val; omega))
  · exact congrArg (V c _) (funext fun a => Fin.ext (by
      match a with
      | ⟨0, _⟩ => show _ * 1 + 1 * 0 = 0; omega
      | ⟨1, _⟩ => show _ * 128 + 1 * q.val = q.val; omega))

theorem step_first (c : Dev nD) (t : Fin cfg3.N) (h0 : t.val % 25 = 0) :
    outsAt3 (F := Ideal) V c t.val t.isLt = stepOf (iblk3 V c 0 t) (iblk3 V c 1 t) (iblk3 V c 2 t) (iblk3 V c 3 t) (k1_pay1 (F := Ideal)) (k1_pay2 (F := Ideal)) :=
  (outsAt3_A V c t h0).trans (pieces_first (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (iblk3 V c 0 t) (iblk3 V c 1 t) (iblk3 V c 2 t) (iblk3 V c 3 t) ((hcond3_0 t).mpr h0))

theorem step_later (c : Dev nD) (t : Fin cfg3.N) (h0 : ¬t.val % 25 = 0) :
    outsAt3 (F := Ideal) V c t.val t.isLt = stepOf (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2 :=
  (outsAt3_B V c t h0).trans (pieces_later (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (iblk3 V c 0 t) (iblk3 V c 1 t) (iblk3 V c 2 t) (iblk3 V c 3 t) (outsAt3 V c (t.val - 1) (Nat.lt_of_le_of_lt (Nat.sub_le _ _) t.isLt)).2.1 (outsAt3 V c (t.val - 1) (Nat.lt_of_le_of_lt (Nat.sub_le _ _) t.isLt)).2.2 (fun h => h0 ((hcond3_0 t).mp h)))

/-- Point t's block of the first result is block t of z. -/
theorem flushed_4 (c : Dev nD) (t : Fin cfg3.N) :
    (dat3 (F := Ideal) V c).flushed 4 t = ((cfg3.win 4).blk t).view.read (Elt Ideal) (zOf V c) := by
  show (cfg3.win 4).cut (grid3.coords t) ((dat3 (F := Ideal) V c).after 4 t) = _
  rw [after3_4, show (outsAt3 (F := Ideal) V c t.val t.isLt).1 = k1_pay3 (iblk3 V c 0 t) (iblk3 V c 1 t) (iblk3 V c 2 t) (iblk3 V c 3 t) from by
    by_cases h0 : t.val % 25 = 0
    · rw [step_first V c t h0]; rfl
    · rw [step_later V c t h0]; rfl]
  obtain ⟨-, -, -, -, -, -, -, -, e0, e1, -⟩ := blockIndex t
  have hp := rowAt_val t.val (t.isLt.trans_eq N_3)
  funext j
  obtain ⟨r, q, rfl⟩ : ∃ (r : Fin 2000) (q : Fin 128), j = ix2 r q := ⟨j 0, j 1, eq_ix2 j⟩
  refine (zblk_apply V c t r q).trans ?_
  show zOf V c (ix2 (rowAt t.val r) q) = zOf V c (((cfg3.win 4).blk t).view.emb (ix2 r q))
  refine congrArg _ (funext fun a => Fin.ext ?_)
  match a with
  | ⟨0, _⟩ => show (rowAt t.val r).val = _ * 2000 + 1 * r.val; have := hp r; omega
  | ⟨1, _⟩ => show q.val = _ * 128 + 1 * q.val; omega

/-- After the region its first output array is z: row p lies in the block of point p / 2000. -/
theorem z_eq (c : Dev nD) : (dat3 (F := Ideal) V c).arrAt 4 cfg3.N = zOf V c :=
  (dat3 (F := Ideal) V c).arrAt_eq_of_cover 4 _ (fun t _ => flushed_4 V c t) fun i => by
    have h0 : (i 0).val < 50000 := (i 0).isLt
    have h1 : (i 1).val < 128 := (i 1).isLt
    have hN : cfg3.N = 25 := N_3
    let t : Fin cfg3.N := ⟨(i 0).val / 2000, by rw [hN]; omega⟩
    obtain ⟨-, -, -, -, -, -, -, -, e0, e1, -⟩ := blockIndex t
    have ht : t.val = (i 0).val / 2000 := rfl
    refine ⟨t, flush3_4 t, ?_⟩
    show i ∈ ((View.whole main_v38_0).slice ((cfg3.win 4).rect t)).set
    rw [View.set_slice_whole, Rect.mem_set_unit]
    intro a
    match a with
    | ⟨0, _⟩ => show _ * 2000 ≤ (i 0).val ∧ (i 0).val < _ * 2000 + 2000; omega
    | ⟨1, _⟩ => show _ * 128 ≤ (i 1).val ∧ (i 1).val < _ * 128 + 128; omega

/-- At the last point the two rows hold the column sums of z and of z² over all 50000 rows. -/
theorem rows_at_last (c : Dev nD) (t : Fin cfg3.N) (ht : t.val = 24) :
    (outsAt3 (F := Ideal) V c t.val t.isLt).2.1 = colSum (zOf V c)
    ∧ (outsAt3 (F := Ideal) V c t.val t.isLt).2.2 = colSum (sq (zOf V c)) := by
  exact sums_of_steps (outsAt3 (F := Ideal) V c) (fun n h => iblk3 V c 0 ⟨n, h⟩) (fun n h => iblk3 V c 1 ⟨n, h⟩)
    (fun n h => iblk3 V c 2 ⟨n, h⟩) (fun n h => iblk3 V c 3 ⟨n, h⟩) (zOf V c)
    (fun n h r q => zblk_apply V c ⟨n, h⟩ r q) (fun h => step_first V c ⟨0, h⟩ rfl)
    (fun n h => step_later V c ⟨n + 1, h⟩ (by have := h.trans_eq N_3; show ¬(n + 1) % 25 = 0; omega)) t.val t.isLt ht

abbrev lastPoint : Fin cfg3.N := ⟨24, by rw [show cfg3.N = 25 from N_3]; decide⟩

theorem flushed_5 (c : Dev nD) (t : Fin cfg3.N) (hf : (cfg3.win 5).flush t = true) :
    (dat3 (F := Ideal) V c).flushed 5 t = ((cfg3.win 5).blk t).view.read (Elt Ideal) (colSum (zOf V c)) := by
  have hN : t.val < 25 := t.isLt.trans_eq N_3
  have h24 : t.val = 24 := by have := (flush3_5 t).mp hf; omega
  obtain ⟨-, -, -, -, -, -, -, -, -, -, e0, e1, -⟩ := blockIndex t
  have hz' : (fun a => (cfg3.win 5).index t a * main_v38_1.ty.shape.size a) = fun _ => 0 := funext fun a => by
    match a with
    | ⟨0, _⟩ => show (cfg3.win 5).index t ⟨0, by decide⟩ * _ = 0; rw [e0, Nat.zero_mul]
    | ⟨1, _⟩ => show (cfg3.win 5).index t ⟨1, by decide⟩ * _ = 0; rw [e1, Nat.zero_mul]
  show (cfg3.win 5).cut (grid3.coords t) ((dat3 V c).after 5 t) = _
  rw [after3_5]
  exact ((rows_at_last V c t h24).1).trans (Memref.read_access_unit_zero (Elt Ideal) main_v38_1 hz' (fun a => by rw [congrFun hz' a]; simp) _).symm

theorem cover_5 (i : S1x128.Idx) :
    ∃ t : Fin cfg3.N, (cfg3.win 5).flush t = true ∧ i ∈ ((cfg3.win 5).blk t).view.set := by
  obtain ⟨-, -, -, -, -, -, -, -, -, -, e0, e1, -⟩ := blockIndex lastPoint
  refine ⟨lastPoint, (flush3_5 lastPoint).mpr rfl, ?_⟩
  show i ∈ ((View.whole main_v38_1).slice ((cfg3.win 5).rect lastPoint)).set
  rw [View.set_slice_whole, Rect.mem_set_unit]
  intro a
  have h0 : (i 0).val < 1 := (i 0).isLt
  have h1 : (i 1).val < 128 := (i 1).isLt
  match a with
  | ⟨0, _⟩ => show _ * 1 ≤ (i 0).val ∧ (i 0).val < _ * 1 + 1; omega
  | ⟨1, _⟩ => show _ * 128 ≤ (i 1).val ∧ (i 1).val < _ * 128 + 128; omega

theorem flushed_6 (c : Dev nD) (t : Fin cfg3.N) (hf : (cfg3.win 6).flush t = true) :
    (dat3 (F := Ideal) V c).flushed 6 t = ((cfg3.win 6).blk t).view.read (Elt Ideal) (colSum (sq (zOf V c))) := by
  have hN : t.val < 25 := t.isLt.trans_eq N_3
  have h24 : t.val = 24 := by have := (flush3_6 t).mp hf; omega
  obtain ⟨-, -, -, -, -, -, -, -, -, -, -, -, e0, e1⟩ := blockIndex t
  have hz' : (fun a => (cfg3.win 6).index t a * main_v38_2.ty.shape.size a) = fun _ => 0 := funext fun a => by
    match a with
    | ⟨0, _⟩ => show (cfg3.win 6).index t ⟨0, by decide⟩ * _ = 0; rw [e0, Nat.zero_mul]
    | ⟨1, _⟩ => show (cfg3.win 6).index t ⟨1, by decide⟩ * _ = 0; rw [e1, Nat.zero_mul]
  show (cfg3.win 6).cut (grid3.coords t) ((dat3 V c).after 6 t) = _
  rw [after3_6]
  exact ((rows_at_last V c t h24).2).trans (Memref.read_access_unit_zero (Elt Ideal) main_v38_2 hz' (fun a => by rw [congrFun hz' a]; simp) _).symm

theorem cover_6 (i : S1x128.Idx) :
    ∃ t : Fin cfg3.N, (cfg3.win 6).flush t = true ∧ i ∈ ((cfg3.win 6).blk t).view.set := by
  obtain ⟨-, -, -, -, -, -, -, -, -, -, -, -, e0, e1⟩ := blockIndex lastPoint
  refine ⟨lastPoint, (flush3_6 lastPoint).mpr rfl, ?_⟩
  show i ∈ ((View.whole main_v38_2).slice ((cfg3.win 6).rect lastPoint)).set
  rw [View.set_slice_whole, Rect.mem_set_unit]
  intro a
  have h0 : (i 0).val < 1 := (i 0).isLt
  have h1 : (i 1).val < 128 := (i 1).isLt
  match a with
  | ⟨0, _⟩ => show _ * 1 ≤ (i 0).val ∧ (i 0).val < _ * 1 + 1; omega
  | ⟨1, _⟩ => show _ * 128 ≤ (i 1).val ∧ (i 1).val < _ * 128 + 128; omega

/-- After the region its second and third output arrays are the column sums of z and of z². -/
theorem sum_eq (c : Dev nD) : (dat3 (F := Ideal) V c).arrAt 5 cfg3.N = colSum (zOf V c) :=
  (dat3 (F := Ideal) V c).arrAt_eq_of_cover 5 _ (flushed_5 V c) cover_5
theorem sumsq_eq (c : Dev nD) : (dat3 (F := Ideal) V c).arrAt 6 cfg3.N = colSum (sq (zOf V c)) :=
  (dat3 (F := Ideal) V c).arrAt_eq_of_cover 6 _ (flushed_6 V c) cover_6

end Cert.KernelIdeal.R3

end
-- ==== Proof.R4.lean ====
import proofs.«407668_j26396869001791_1_alg».proof.Proof.Gen.KernelIdeal.Frame
import proofs.«407668_j26396869001791_1_alg».proof.Proof.GnnLinear
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.R4

open Cert.KernelIdeal Cert.KernelIdeal.Gen Cert.KernelIdeal.Lin GinSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem blockPositions : ∀ t : Fin cfg4.N,
    (cfg4.win 0).index t ⟨0, by decide⟩ = t.val ∧ (cfg4.win 0).index t ⟨1, by decide⟩ = 0
    ∧ (cfg4.win 1).index t ⟨0, by decide⟩ = 0 ∧ (cfg4.win 1).index t ⟨1, by decide⟩ = 0 ∧ (cfg4.win 2).index t ⟨0, by decide⟩ = 0 ∧ (cfg4.win 2).index t ⟨1, by decide⟩ = 0
    ∧ (cfg4.win 3).index t ⟨0, by decide⟩ = 0 ∧ (cfg4.win 3).index t ⟨1, by decide⟩ = 0 ∧ (cfg4.win 4).index t ⟨0, by decide⟩ = 0 ∧ (cfg4.win 4).index t ⟨1, by decide⟩ = 0
    ∧ (cfg4.win 5).index t ⟨0, by decide⟩ = t.val ∧ (cfg4.win 5).index t ⟨1, by decide⟩ = 0 :=
  (by decide +kernel : ∀ t : Fin grid4.N, _)

theorem zRows (c : Dev nD) (t : Fin cfg4.N) (r : Fin 2000) (q : Fin 128) (k : Fin 50000)
    (hk : k.val = 2000 * t.val + r.val) :
    (iblk4 V c 0 t : Vec Ideal S2000x128 .f32) (ix2 r q) = (V c (Pipeline.arrRef spec4 0) : Arr ND) (ix2 k q) := by
  obtain ⟨e0, e1, -⟩ := blockPositions t
  unfold iblk4
  rw [View.read_apply]
  show V c (Pipeline.arrRef spec4 0) _ = V c (Pipeline.arrRef spec4 0) _
  congr 1
  funext a; apply Fin.ext
  match a with
  | ⟨0, _⟩ => show _ * 2000 + 1 * r.val = k.val; omega
  | ⟨1, _⟩ => show _ * 128 + 1 * q.val = q.val; omega

theorem meanRow (c : Dev nD) (t : Fin cfg4.N) (q : Fin 128) :
    (iblk4 V c 1 t : Vec Ideal S1x128 .f32) (ix2 0 q) = (V c (Pipeline.arrRef spec4 1) : Arr OD) (ix2 0 q) := by
  obtain ⟨-, -, e0, e1, -⟩ := blockPositions t
  unfold iblk4
  rw [View.read_apply]
  show V c _ _ = V c _ _
  congr 1
  funext a; apply Fin.ext
  match a with
  | ⟨0, _⟩ => show _ * 1 + 1 * 0 = 0; omega
  | ⟨1, _⟩ => show _ * 128 + 1 * q.val = q.val; omega

theorem varRow (c : Dev nD) (t : Fin cfg4.N) (q : Fin 128) :
    (iblk4 V c 2 t : Vec Ideal S1x128 .f32) (ix2 0 q) = (V c (Pipeline.arrRef spec4 2) : Arr OD) (ix2 0 q) := by
  obtain ⟨-, -, -, -, e0, e1, -⟩ := blockPositions t
  unfold iblk4
  rw [View.read_apply]
  show V c _ _ = V c _ _
  congr 1
  funext a; apply Fin.ext
  match a with
  | ⟨0, _⟩ => show _ * 1 + 1 * 0 = 0; omega
  | ⟨1, _⟩ => show _ * 128 + 1 * q.val = q.val; omega

theorem scaleRow (c : Dev nD) (t : Fin cfg4.N) (q : Fin 128) :
    (iblk4 V c 3 t : Vec Ideal S1x128 .f32) (ix2 0 q) = (V c (Pipeline.arrRef spec4 3) : Arr OD) (ix2 0 q) := by
  obtain ⟨-, -, -, -, -, -, e0, e1, -⟩ := blockPositions t
  unfold iblk4
  rw [View.read_apply]
  show V c _ _ = V c _ _
  congr 1
  funext a; apply Fin.ext
  match a with
  | ⟨0, _⟩ => show _ * 1 + 1 * 0 = 0; omega
  | ⟨1, _⟩ => show _ * 128 + 1 * q.val = q.val; omega

theorem shiftRow (c : Dev nD) (t : Fin cfg4.N) (q : Fin 128) :
    (iblk4 V c 4 t : Vec Ideal S1x128 .f32) (ix2 0 q) = (V c (Pipeline.arrRef spec4 4) : Arr OD) (ix2 0 q) := by
  obtain ⟨-, -, -, -, -, -, -, -, e0, e1, -⟩ := blockPositions t
  unfold iblk4
  rw [View.read_apply]
  show V c _ _ = V c _ _
  congr 1
  funext a; apply Fin.ext
  match a with
  | ⟨0, _⟩ => show _ * 1 + 1 * 0 = 0; omega
  | ⟨1, _⟩ => show _ * 128 + 1 * q.val = q.val; omega

theorem outRows (G : Arr ND) (c : Dev nD) (t : Fin cfg4.N) (r : Fin 2000) (q : Fin 128) (k : Fin 50000)
    (hk : k.val = 2000 * t.val + r.val) :
    (((cfg4.win 5).blk t).view.read (Elt Ideal) G : Vec Ideal S2000x128 .f32) (ix2 r q) = G (ix2 k q) := by
  obtain ⟨-, -, -, -, -, -, -, -, -, -, e0, e1⟩ := blockPositions t
  rw [View.read_apply]
  show G _ = G _
  congr 1
  funext a; apply Fin.ext
  match a with
  | ⟨0, _⟩ => show _ * 2000 + 1 * r.val = k.val; omega
  | ⟨1, _⟩ => show _ * 128 + 1 * q.val = q.val; omega

theorem writeBack_eq (c : Dev nD) (t : Fin cfg4.N) :
    (dat4 (F := Ideal) V c).flushed 5 t
      = ((cfg4.win 5).blk t).view.read (Elt Ideal)
          (bn (V c (Pipeline.arrRef spec4 0)) (V c (Pipeline.arrRef spec4 1)) (V c (Pipeline.arrRef spec4 2))
            (V c (Pipeline.arrRef spec4 3)) (V c (Pipeline.arrRef spec4 4))) := by
  show (cfg4.win 5).cut (grid4.coords t) ((dat4 V c).after 5 t) = _
  rw [after4_5]
  unfold out4_5
  rw [View.canon_unit_zero noOffset]
  simp only [View.ld_unit_zero (S := S2000x128) noOffset, View.ld_unit_zero (S := S1x128) noOffset]
  funext j
  obtain ⟨r, q, rfl⟩ : ∃ (r : Fin 2000) (q : Fin 128), j = ix2 r q := ⟨j 0, j 1, eq_ix2 j⟩
  have ht : t.val < 25 := t.isLt.trans_eq N_4
  have hk : 2000 * t.val + r.val < 50000 := by have := r.isLt; omega
  refine (bnBody_apply (iblk4 V c 0 t) (iblk4 V c 2 t) (iblk4 V c 1 t) (iblk4 V c 3 t) (iblk4 V c 4 t) r q).trans ?_
  refine Eq.trans ?_ ((outRows _ c t r q ⟨_, hk⟩ rfl).trans (bn_apply _ _ _ _ _ ⟨_, hk⟩ q)).symm
  exact bn_congr (zRows V c t r q ⟨_, hk⟩ rfl) (meanRow V c t q) (varRow V c t q) (scaleRow V c t q) (shiftRow V c t q)

theorem out_eq (c : Dev nD) :
    (dat4 (F := Ideal) V c).arrAt 5 cfg4.N
      = bn (V c (Pipeline.arrRef spec4 0)) (V c (Pipeline.arrRef spec4 1)) (V c (Pipeline.arrRef spec4 2))
          (V c (Pipeline.arrRef spec4 3)) (V c (Pipeline.arrRef spec4 4)) :=

  (dat4 (F := Ideal) V c).arrAt_eq_of_cover 5 _ (fun t _ => writeBack_eq V c t) fun i => by
    have h0 : (i 0).val < 50000 := (i 0).isLt
    have h1 : (i 1).val < 128 := (i 1).isLt
    have hN : cfg4.N = 25 := N_4
    let t : Fin cfg4.N := ⟨(i 0).val / 2000, by rw [hN]; omega⟩
    obtain ⟨-, -, -, -, -, -, -, -, -, -, e0, e1⟩ := blockPositions t
    have ht : t.val = (i 0).val / 2000 := rfl
    refine ⟨t, flush4_5 t, ?_⟩
    show i ∈ ((View.whole main_v51).slice ((cfg4.win 5).rect t)).set
    rw [View.set_slice_whole, Rect.mem_set_unit]
    intro a
    match a with
    | ⟨0, _⟩ => show _ * 2000 ≤ (i 0).val ∧ (i 0).val < _ * 2000 + 2000; omega
    | ⟨1, _⟩ => show _ * 128 ≤ (i 1).val ∧ (i 1).val < _ * 128 + 128; omega

end Cert.KernelIdeal.R4

end
-- ==== Proof.KLayer2.lean ====
import proofs.«407668_j26396869001791_1_alg».proof.Proof.KNames
import proofs.«407668_j26396869001791_1_alg».proof.Proof.KLayer1
import proofs.«407668_j26396869001791_1_alg».proof.Proof.KTake
import proofs.«407668_j26396869001791_1_alg».proof.Proof.R3
import proofs.«407668_j26396869001791_1_alg».proof.Proof.R4
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Agg GinSpec
open Idealize.ShloMosaic Idealize.ShloMosaic.TcCoe Idealize.SL.Sem Idealize.ShloMosaic.StableHlo

variable (m : (ℓ : Loc nD τ sig) → Buf (Elt Ideal) ℓ) (ρ : Dev nD → PrngReg)

def pre2 (c : Dev nD) : Arr ND :=
  gnnZ (table1 m c) (aggFill (edges m c) (table1 m c))
    (weightsAt (m ((c : Thread nD τ).loc main_arg4)) ![1, 0, 0] slices_S3x128x128_S1x128x128_1_0_0)
    (rowAt (m ((c : Thread nD τ).loc main_arg5)) ![1, 0] slices_S3x128_S1x128_1_0)

theorem src_in2 (c : Dev nD) : W7 m ρ c (Proc.devRef .tc main_v1) = srcOf (edges m c) := by
  repeat wstep
  try rfl
theorem dst_in2 (c : Dev nD) : W7 m ρ c (Proc.devRef .tc main_v3) = dstOf (edges m c) := by
  repeat wstep
  try rfl

theorem in3_0 (c : Dev nD) : V9 m ρ c (Pipeline.arrRef spec3 0) = table1 m c := by
  show W9 m ρ c (Proc.devRef .tc main_v28) = _
  wstep
  exact exit2 m ρ c

theorem in3_1 (c : Dev nD) : V9 m ρ c (Pipeline.arrRef spec3 1) = aggFill (edges m c) (table1 m c) := by
  show W9 m ρ c (Proc.devRef .tc main_v32) = _
  dsimp only [W9, W8]
  rw [hostOps3_eq]
  after_results_simp
  rw [exit2 m ρ c, src_in2 m ρ c, dst_in2 m ρ c]
  rfl

theorem in3_2 (c : Dev nD) : V9 m ρ c (Pipeline.arrRef spec3 2)
    = weightsAt (m ((c : Thread nD τ).loc main_arg4)) ![1, 0, 0] slices_S3x128x128_S1x128x128_1_0_0 := by
  show W9 m ρ c (Proc.devRef .tc main_v34) = _
  repeat wstep
  try rfl

theorem in3_3 (c : Dev nD) : V9 m ρ c (Pipeline.arrRef spec3 3)
    = rowAt (m ((c : Thread nD τ).loc main_arg5)) ![1, 0] slices_S3x128_S1x128_1_0 := by
  show W9 m ρ c (Proc.devRef .tc main_v37) = _
  repeat wstep
  try rfl

theorem entry3 (c : Dev nD) : R3.zOf (V9 m ρ) c = pre2 m c := by
  unfold R3.zOf pre2
  rw [in3_0 m ρ c, in3_1 m ρ c, in3_2 m ρ c, in3_3 m ρ c]

theorem exit3_z (c : Dev nD) : W10 m ρ c (Proc.devRef .tc main_v38_0) = pre2 m c :=
  (W10_arr m ρ c 4).trans ((R3.z_eq (V9 m ρ) c).trans (entry3 m ρ c))
theorem exit3_sum (c : Dev nD) : W10 m ρ c (Proc.devRef .tc main_v38_1) = colSum (pre2 m c) :=
  (W10_arr m ρ c 5).trans ((R3.sum_eq (V9 m ρ) c).trans (congrArg colSum (entry3 m ρ c)))
theorem exit3_sumsq (c : Dev nD) : W10 m ρ c (Proc.devRef .tc main_v38_2) = colSum (sq (pre2 m c)) :=
  (W10_arr m ρ c 6).trans ((R3.sumsq_eq (V9 m ρ) c).trans (congrArg (fun z => colSum (sq z)) (entry3 m ρ c)))

theorem in4_0 (c : Dev nD) : V11 m ρ c (Pipeline.arrRef spec4 0) = pre2 m c := by
  show W11 m ρ c (Proc.devRef .tc main_v38_0) = _
  wstep
  exact exit3_z m ρ c
theorem in4_1 (c : Dev nD) : V11 m ρ c (Pipeline.arrRef spec4 1) = overN (colSum (pre2 m c)) := by
  show W11 m ρ c (Proc.devRef .tc main_v40) = _
  wstep
  rw [exit3_sum m ρ c]
  rfl
theorem in4_2 (c : Dev nD) : V11 m ρ c (Pipeline.arrRef spec4 2)
    = varOfMoments (colSum (sq (pre2 m c))) (overN (colSum (pre2 m c))) := by
  show W11 m ρ c (Proc.devRef .tc main_v44) = _
  wstep
  rw [exit3_sumsq m ρ c, exit3_sum m ρ c]
  rfl
theorem in4_3 (c : Dev nD) : V11 m ρ c (Pipeline.arrRef spec4 3)
    = rowAt (m ((c : Thread nD τ).loc main_arg6)) ![1, 0] slices_S3x128_S1x128_1_0 := by
  show W11 m ρ c (Proc.devRef .tc main_v49) = _
  repeat wstep
  try rfl
theorem in4_4 (c : Dev nD) : V11 m ρ c (Pipeline.arrRef spec4 4)
    = rowAt (m ((c : Thread nD τ).loc main_arg7)) ![1, 0] slices_S3x128_S1x128_1_0 := by
  show W11 m ρ c (Proc.devRef .tc main_v50) = _
  repeat wstep
  try rfl

theorem exit4 (c : Dev nD) : W12 m ρ c (Proc.devRef .tc main_v51) = table2 m c := by
  refine (W12_arr m ρ c 5).trans ?_
  rw [R4.out_eq, in4_0 m ρ c, in4_1 m ρ c, in4_2 m ρ c, in4_3 m ρ c, in4_4 m ρ c]
  rfl

end Cert.KernelIdeal.Chain

end
-- ==== Proof.R5.lean ====
import proofs.«407668_j26396869001791_1_alg».proof.Proof.Gen.KernelIdeal.Frame
import proofs.«407668_j26396869001791_1_alg».proof.Proof.GnnLinear
import Idealize.ShloMosaic.Lib.Tactic

set_option maxRecDepth 16384

noncomputable section

open scoped BigOperators

namespace Cert.KernelIdeal.R5

open Cert.KernelIdeal Cert.KernelIdeal.Gen Cert.KernelIdeal.Lin GinSpec
open Idealize.ShloMosaic Idealize.ShloMosaic.TcCoe Idealize.ShloMosaic.ValueIdx Idealize.SL.Sem
open Idealize.ShloMosaic.Pipeline (Dat)

section Pieces
variable {F : FTy → Type} [FloatOps F] (c : Dev nD) (i : grid5.Coords)
  (a1 : Memref sig .tc .vmem S2000x128 .f32) (h1 : a1.IsWhole) (a2 : Memref sig .tc .vmem S2000x128 .f32) (h2 : a2.IsWhole)
  (a3 : Memref sig .tc .vmem S128x128 .f32) (h3 : a3.IsWhole) (a4 : Memref sig .tc .vmem S1x128 .f32) (h4 : a4.IsWhole)
  (a5 : Memref sig .tc .vmem S2000x128 .f32) (h5 : a5.IsWhole) (a6 : Memref sig .tc .vmem S1x128 .f32) (h6 : a6.IsWhole)
  (a7 : Memref sig .tc .vmem S1x128 .f32) (h7 : a7.IsWhole)
  (x0 x1 : Vec F S2000x128 .f32) (x2 : Vec F S128x128 .f32) (x3 s5 s6 : Vec F S1x128 .f32)

/-- At the first point the three results are the step over zero rows. -/
theorem pieces_first (hc : cond5_0 i) :
    (out5_A_4 c i a1 h1 a2 h2 a3 h3 a4 h4 a5 h5 a6 h6 a7 h7 hc x0 x1 x2 x3, out5_A_5 c i a1 h1 a2 h2 a3 h3 a4 h4 a5 h5 a6 h6 a7 h7 hc x0 x1 x2 x3, out5_A_6 c i a1 h1 a2 h2 a3 h3 a4 h4 a5 h5 a6 h6 a7 h7 hc x0 x1 x2 x3)
      = stepOf x0 x1 x2 x3 (k1_pay1 (F := F)) (k1_pay2 (F := F)) := by
  unfold stepOf out5_A_4 out5_A_5 out5_A_6
  refine congrArg₂ Prod.mk ?_ (congrArg₂ Prod.mk ?_ ?_)
  on_goal 1 => rw [View.read_writes_eq_canon _ _ _ (cover5_A_4 c i a1 h1 a2 h2 a3 h3 a4 h4 a5 h5 a6 h6 a7 h7 hc x0 x1 x2 x3)]
  on_goal 2 => rw [View.read_writes_eq_canon _ _ _ (cover5_A_5 c i a1 h1 a2 h2 a3 h3 a4 h4 a5 h5 a6 h6 a7 h7 hc x0 x1 x2 x3)]
  on_goal 3 => rw [View.read_writes_eq_canon _ _ _ (cover5_A_6 c i a1 h1 a2 h2 a3 h3 a4 h4 a5 h5 a6 h6 a7 h7 hc x0 x1 x2 x3)]
  all_goals
    unfold kernelRun5_A
    dsimp only
    sl_unfold_words
    first
      | rw [View.canon_unit_zero noOffset]
      | rw [View.canon_cons_unit_zero (S := S1x128) noOffset, View.readCov_unit_zero (S := S1x128) _ noOffset]
    simp only [View.readAt_eq_ld, h1.read_unread, h2.read_unread, h3.read_unread, h4.read_unread, h6.read_unread, h7.read_unread,
      View.ld_unit_zero (S := S2000x128) noOffset, View.ld_unit_zero (S := S128x128) noOffset, View.ld_unit_zero (S := S1x128) noOffset] <;> rfl

/-- At a later point they are the step over the two rows as the point before left them. -/
theorem pieces_later (hc : ¬cond5_0 i) :
    (out5_B_4 c i a1 h1 a2 h2 a3 h3 a4 h4 a5 h5 a6 h6 a7 h7 hc x0 x1 x2 x3 s5 s6, out5_B_5 c i a1 h1 a2 h2 a3 h3 a4 h4 a5 h5 a6 h6 a7 h7 hc x0 x1 x2 x3 s5 s6, out5_B_6 c i a1 h1 a2 h2 a3 h3 a4 h4 a5 h5 a6 h6 a7 h7 hc x0 x1 x2 x3 s5 s6)
      = stepOf x0 x1 x2 x3 s5 s6 := by
  unfold stepOf out5_B_4 out5_B_5 out5_B_6
  refine congrArg₂ Prod.mk ?_ (congrArg₂ Prod.mk ?_ ?_)
  on_goal 1 => rw [View.read_writes_eq_canon _ _ _ (cover5_B_4 c i a1 h1 a2 h2 a3 h3 a4 h4 a5 h5 a6 h6 a7 h7 hc x0 x1 x2 x3 s5 s6)]
  on_goal 2 => rw [View.read_writes_eq_canon _ _ _ (cover5_B_5 c i a1 h1 a2 h2 a3 h3 a4 h4 a5 h5 a6 h6 a7 h7 hc x0 x1 x2 x3 s5 s6)]
  on_goal 3 => rw [View.read_writes_eq_canon _ _ _ (cover5_B_6 c i a1 h1 a2 h2 a3 h3 a4 h4 a5 h5 a6 h6 a7 h7 hc x0 x1 x2 x3 s5 s6)]
  all_goals
    unfold kernelRun5_B
    dsimp only
    sl_unfold_words
    first
      | rw [View.canon_unit_zero noOffset]
      | rw [View.canon_cons_unit_zero (S := S1x128) noOffset, View.readCov_unit_zero (S := S1x128) _ noOffset]
    simp only [View.readAt_eq_ld, h1.read_unread, h2.read_unread, h3.read_unread, h4.read_unread, h6.read_unread, h7.read_unread,
      View.ld_unit_zero (S := S2000x128) noOffset, View.ld_unit_zero (S := S128x128) noOffset, View.ld_unit_zero (S := S1x128) noOffset] <;> rfl

end Pieces

variable (V : (c : Dev nD) → (b : Ref sig .tc) → Buf (Elt Ideal) ((c : Thread nD τ).loc b))

/-- The pre-activation of the region's four input arrays (h, agg, w, b). -/
abbrev zOf (c : Dev nD) : Arr ND :=
  gnnZ (V c (Pipeline.arrRef spec5 0)) (V c (Pipeline.arrRef spec5 1)) (V c (Pipeline.arrRef spec5 2)) (V c (Pipeline.arrRef spec5 3))

theorem blockIndex : ∀ t : Fin cfg5.N, (cfg5.win 0).index t ⟨0, by decide⟩ = t.val ∧ (cfg5.win 0).index t ⟨1, by decide⟩ = 0
    ∧ (cfg5.win 1).index t ⟨0, by decide⟩ = t.val ∧ (cfg5.win 1).index t ⟨1, by decide⟩ = 0 ∧ (cfg5.win 2).index t ⟨0, by decide⟩ = 0 ∧ (cfg5.win 2).index t ⟨1, by decide⟩ = 0
    ∧ (cfg5.win 3).index t ⟨0, by decide⟩ = 0 ∧ (cfg5.win 3).index t ⟨1, by decide⟩ = 0 ∧ (cfg5.win 4).index t ⟨0, by decide⟩ = t.val ∧ (cfg5.win 4).index t ⟨1, by decide⟩ = 0
    ∧ (cfg5.win 5).index t ⟨0, by decide⟩ = 0 ∧ (cfg5.win 5).index t ⟨1, by decide⟩ = 0 ∧ (cfg5.win 6).index t ⟨0, by decide⟩ = 0 ∧ (cfg5.win 6).index t ⟨1, by decide⟩ = 0 :=
  (by decide +kernel : ∀ t : Fin grid5.N, _)

/-- The z payload of point t's four blocks is rows 2000·t … of z: a block's entry sits in its array at block index ×
    block size + the coordinate inside the block. -/
theorem zblk_apply (c : Dev nD) (t : Fin cfg5.N) (r : Fin 2000) (q : Fin 128) :
    k1_pay3 (F := Ideal) (iblk5 V c 0 t) (iblk5 V c 1 t) (iblk5 V c 2 t) (iblk5 V c 3 t) (ix2 r q) = zOf V c (ix2 (rowAt t.val r) q) := by
  obtain ⟨a0, a1, b0, b1, c0, c1, d0, d1, -⟩ := blockIndex t
  have hp := rowAt_val t.val (t.isLt.trans_eq N_5) r
  refine (zPayload_apply (iblk5 V c 0 t) (iblk5 V c 1 t) (iblk5 V c 2 t) (iblk5 V c 3 t) r q).trans (Eq.trans ?_ (affine_apply _ _ _ (rowAt t.val r) q).symm)
  refine congrArg₂ (· + ·) (Finset.sum_congr rfl fun k _ => congrArg₂ (· * ·) (congrArg₂ (· + ·) ?_ ?_) ?_) ?_
  iterate 2
    exact congrArg (V c _) (funext fun a => Fin.ext (by
      match a with
      | ⟨0, _⟩ => show _ * 2000 + 1 * r.val = (rowAt t.val r).val; omega
      | ⟨1, _⟩ => show _ * 128 + 1 * k.val = k.val; omega))
  · exact congrArg (V c _) (funext fun a => Fin.ext (by
      match a with
      | ⟨0, _⟩ => show _ * 128 + 1 * k.val = k.val; omega
      | ⟨1, _⟩ => show _ * 128 + 1 * q.val = q.val; omega))
  · exact congrArg (V c _) (funext fun a => Fin.ext (by
      match a with
      | ⟨0, _⟩ => show _ * 1 + 1 * 0 = 0; omega
      | ⟨1, _⟩ => show _ * 128 + 1 * q.val = q.val; omega))

theorem step_first (c : Dev nD) (t : Fin cfg5.N) (h0 : t.val % 25 = 0) :
    outsAt5 (F := Ideal) V c t.val t.isLt = stepOf (iblk5 V c 0 t) (iblk5 V c 1 t) (iblk5 V c 2 t) (iblk5 V c 3 t) (k1_pay1 (F := Ideal)) (k1_pay2 (F := Ideal)) :=
  (outsAt5_A V c t h0).trans (pieces_first (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (iblk5 V c 0 t) (iblk5 V c 1 t) (iblk5 V c 2 t) (iblk5 V c 3 t) ((hcond5_0 t).mpr h0))

theorem step_later (c : Dev nD) (t : Fin cfg5.N) (h0 : ¬t.val % 25 = 0) :
    outsAt5 (F := Ideal) V c t.val t.isLt = stepOf (iblk5 V c 0 t) (iblk5 V c 1 t) (iblk5 V c 2 t) (iblk5 V c 3 t) (outsAt5 V c (t.val - 1) (Nat.lt_of_le_of_lt (Nat.sub_le _ _) t.isLt)).2.1 (outsAt5 V c (t.val - 1) (Nat.lt_of_le_of_lt (Nat.sub_le _ _) t.isLt)).2.2 :=
  (outsAt5_B V c t h0).trans (pieces_later (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (iblk5 V c 0 t) (iblk5 V c 1 t) (iblk5 V c 2 t) (iblk5 V c 3 t) (outsAt5 V c (t.val - 1) (Nat.lt_of_le_of_lt (Nat.sub_le _ _) t.isLt)).2.1 (outsAt5 V c (t.val - 1) (Nat.lt_of_le_of_lt (Nat.sub_le _ _) t.isLt)).2.2 (fun h => h0 ((hcond5_0 t).mp h)))

/-- Point t's block of the first result is block t of z. -/
theorem flushed_4 (c : Dev nD) (t : Fin cfg5.N) :
    (dat5 (F := Ideal) V c).flushed 4 t = ((cfg5.win 4).blk t).view.read (Elt Ideal) (zOf V c) := by
  show (cfg5.win 4).cut (grid5.coords t) ((dat5 (F := Ideal) V c).after 4 t) = _
  rw [after5_4, show (outsAt5 (F := Ideal) V c t.val t.isLt).1 = k1_pay3 (iblk5 V c 0 t) (iblk5 V c 1 t) (iblk5 V c 2 t) (iblk5 V c 3 t) from by
    by_cases h0 : t.val % 25 = 0
    · rw [step_first V c t h0]; rfl
    · rw [step_later V c t h0]; rfl]
  obtain ⟨-, -, -, -, -, -, -, -, e0, e1, -⟩ := blockIndex t
  have hp := rowAt_val t.val (t.isLt.trans_eq N_5)
  funext j
  obtain ⟨r, q, rfl⟩ : ∃ (r : Fin 2000) (q : Fin 128), j = ix2 r q := ⟨j 0, j 1, eq_ix2 j⟩
  refine (zblk_apply V c t r q).trans ?_
  show zOf V c (ix2 (rowAt t.val r) q) = zOf V c (((cfg5.win 4).blk t).view.emb (ix2 r q))
  refine congrArg _ (funext fun a => Fin.ext ?_)
  match a with
  | ⟨0, _⟩ => show (rowAt t.val r).val = _ * 2000 + 1 * r.val; have := hp r; omega
  | ⟨1, _⟩ => show q.val = _ * 128 + 1 * q.val; omega

/-- After the region its first output array is z: row p lies in the block of point p / 2000. -/
theorem z_eq (c : Dev nD) : (dat5 (F := Ideal) V c).arrAt 4 cfg5.N = zOf V c :=
  (dat5 (F := Ideal) V c).arrAt_eq_of_cover 4 _ (fun t _ => flushed_4 V c t) fun i => by
    have h0 : (i 0).val < 50000 := (i 0).isLt
    have h1 : (i 1).val < 128 := (i 1).isLt
    have hN : cfg5.N = 25 := N_5
    let t : Fin cfg5.N := ⟨(i 0).val / 2000, by rw [hN]; omega⟩
    obtain ⟨-, -, -, -, -, -, -, -, e0, e1, -⟩ := blockIndex t
    have ht : t.val = (i 0).val / 2000 := rfl
    refine ⟨t, flush5_4 t, ?_⟩
    show i ∈ ((View.whole main_v61_0).slice ((cfg5.win 4).rect t)).set
    rw [View.set_slice_whole, Rect.mem_set_unit]
    intro a
    match a with
    | ⟨0, _⟩ => show _ * 2000 ≤ (i 0).val ∧ (i 0).val < _ * 2000 + 2000; omega
    | ⟨1, _⟩ => show _ * 128 ≤ (i 1).val ∧ (i 1).val < _ * 128 + 128; omega

/-- At the last point the two rows hold the column sums of z and of z² over all 50000 rows. -/
theorem rows_at_last (c : Dev nD) (t : Fin cfg5.N) (ht : t.val = 24) :
    (outsAt5 (F := Ideal) V c t.val t.isLt).2.1 = colSum (zOf V c)
    ∧ (outsAt5 (F := Ideal) V c t.val t.isLt).2.2 = colSum (sq (zOf V c)) := by
  exact sums_of_steps (outsAt5 (F := Ideal) V c) (fun n h => iblk5 V c 0 ⟨n, h⟩) (fun n h => iblk5 V c 1 ⟨n, h⟩)
    (fun n h => iblk5 V c 2 ⟨n, h⟩) (fun n h => iblk5 V c 3 ⟨n, h⟩) (zOf V c)
    (fun n h r q => zblk_apply V c ⟨n, h⟩ r q) (fun h => step_first V c ⟨0, h⟩ rfl)
    (fun n h => step_later V c ⟨n + 1, h⟩ (by have := h.trans_eq N_5; show ¬(n + 1) % 25 = 0; omega)) t.val t.isLt ht

abbrev lastPoint : Fin cfg5.N := ⟨24, by rw [show cfg5.N = 25 from N_5]; decide⟩

theorem flushed_5 (c : Dev nD) (t : Fin cfg5.N) (hf : (cfg5.win 5).flush t = true) :
    (dat5 (F := Ideal) V c).flushed 5 t = ((cfg5.win 5).blk t).view.read (Elt Ideal) (colSum (zOf V c)) := by
  have hN : t.val < 25 := t.isLt.trans_eq N_5
  have h24 : t.val = 24 := by have := (flush5_5 t).mp hf; omega
  obtain ⟨-, -, -, -, -, -, -, -, -, -, e0, e1, -⟩ := blockIndex t
  have hz' : (fun a => (cfg5.win 5).index t a * main_v61_1.ty.shape.size a) = fun _ => 0 := funext fun a => by
    match a with
    | ⟨0, _⟩ => show (cfg5.win 5).index t ⟨0, by decide⟩ * _ = 0; rw [e0, Nat.zero_mul]
    | ⟨1, _⟩ => show (cfg5.win 5).index t ⟨1, by decide⟩ * _ = 0; rw [e1, Nat.zero_mul]
  show (cfg5.win 5).cut (grid5.coords t) ((dat5 V c).after 5 t) = _
  rw [after5_5]
  exact ((rows_at_last V c t h24).1).trans (Memref.read_access_unit_zero (Elt Ideal) main_v61_1 hz' (fun a => by rw [congrFun hz' a]; simp) _).symm

theorem cover_5 (i : S1x128.Idx) :
    ∃ t : Fin cfg5.N, (cfg5.win 5).flush t = true ∧ i ∈ ((cfg5.win 5).blk t).view.set := by
  obtain ⟨-, -, -, -, -, -, -, -, -, -, e0, e1, -⟩ := blockIndex lastPoint
  refine ⟨lastPoint, (flush5_5 lastPoint).mpr rfl, ?_⟩
  show i ∈ ((View.whole main_v61_1).slice ((cfg5.win 5).rect lastPoint)).set
  rw [View.set_slice_whole, Rect.mem_set_unit]
  intro a
  have h0 : (i 0).val < 1 := (i 0).isLt
  have h1 : (i 1).val < 128 := (i 1).isLt
  match a with
  | ⟨0, _⟩ => show _ * 1 ≤ (i 0).val ∧ (i 0).val < _ * 1 + 1; omega
  | ⟨1, _⟩ => show _ * 128 ≤ (i 1).val ∧ (i 1).val < _ * 128 + 128; omega

theorem flushed_6 (c : Dev nD) (t : Fin cfg5.N) (hf : (cfg5.win 6).flush t = true) :
    (dat5 (F := Ideal) V c).flushed 6 t = ((cfg5.win 6).blk t).view.read (Elt Ideal) (colSum (sq (zOf V c))) := by
  have hN : t.val < 25 := t.isLt.trans_eq N_5
  have h24 : t.val = 24 := by have := (flush5_6 t).mp hf; omega
  obtain ⟨-, -, -, -, -, -, -, -, -, -, -, -, e0, e1⟩ := blockIndex t
  have hz' : (fun a => (cfg5.win 6).index t a * main_v61_2.ty.shape.size a) = fun _ => 0 := funext fun a => by
    match a with
    | ⟨0, _⟩ => show (cfg5.win 6).index t ⟨0, by decide⟩ * _ = 0; rw [e0, Nat.zero_mul]
    | ⟨1, _⟩ => show (cfg5.win 6).index t ⟨1, by decide⟩ * _ = 0; rw [e1, Nat.zero_mul]
  show (cfg5.win 6).cut (grid5.coords t) ((dat5 V c).after 6 t) = _
  rw [after5_6]
  exact ((rows_at_last V c t h24).2).trans (Memref.read_access_unit_zero (Elt Ideal) main_v61_2 hz' (fun a => by rw [congrFun hz' a]; simp) _).symm

theorem cover_6 (i : S1x128.Idx) :
    ∃ t : Fin cfg5.N, (cfg5.win 6).flush t = true ∧ i ∈ ((cfg5.win 6).blk t).view.set := by
  obtain ⟨-, -, -, -, -, -, -, -, -, -, -, -, e0, e1⟩ := blockIndex lastPoint
  refine ⟨lastPoint, (flush5_6 lastPoint).mpr rfl, ?_⟩
  show i ∈ ((View.whole main_v61_2).slice ((cfg5.win 6).rect lastPoint)).set
  rw [View.set_slice_whole, Rect.mem_set_unit]
  intro a
  have h0 : (i 0).val < 1 := (i 0).isLt
  have h1 : (i 1).val < 128 := (i 1).isLt
  match a with
  | ⟨0, _⟩ => show _ * 1 ≤ (i 0).val ∧ (i 0).val < _ * 1 + 1; omega
  | ⟨1, _⟩ => show _ * 128 ≤ (i 1).val ∧ (i 1).val < _ * 128 + 128; omega

/-- After the region its second and third output arrays are the column sums of z and of z². -/
theorem sum_eq (c : Dev nD) : (dat5 (F := Ideal) V c).arrAt 5 cfg5.N = colSum (zOf V c) :=
  (dat5 (F := Ideal) V c).arrAt_eq_of_cover 5 _ (flushed_5 V c) cover_5
theorem sumsq_eq (c : Dev nD) : (dat5 (F := Ideal) V c).arrAt 6 cfg5.N = colSum (sq (zOf V c)) :=
  (dat5 (F := Ideal) V c).arrAt_eq_of_cover 6 _ (flushed_6 V c) cover_6

end Cert.KernelIdeal.R5

end
-- ==== Proof.R6.lean ====
import proofs.«407668_j26396869001791_1_alg».proof.Proof.Gen.KernelIdeal.Frame
import proofs.«407668_j26396869001791_1_alg».proof.Proof.GnnLinear
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.R6

open Cert.KernelIdeal Cert.KernelIdeal.Gen Cert.KernelIdeal.Lin GinSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem blockPositions : ∀ t : Fin cfg6.N,
    (cfg6.win 0).index t ⟨0, by decide⟩ = t.val ∧ (cfg6.win 0).index t ⟨1, by decide⟩ = 0
    ∧ (cfg6.win 1).index t ⟨0, by decide⟩ = 0 ∧ (cfg6.win 1).index t ⟨1, by decide⟩ = 0 ∧ (cfg6.win 2).index t ⟨0, by decide⟩ = 0 ∧ (cfg6.win 2).index t ⟨1, by decide⟩ = 0
    ∧ (cfg6.win 3).index t ⟨0, by decide⟩ = 0 ∧ (cfg6.win 3).index t ⟨1, by decide⟩ = 0 ∧ (cfg6.win 4).index t ⟨0, by decide⟩ = 0 ∧ (cfg6.win 4).index t ⟨1, by decide⟩ = 0
    ∧ (cfg6.win 5).index t ⟨0, by decide⟩ = t.val ∧ (cfg6.win 5).index t ⟨1, by decide⟩ = 0 :=
  (by decide +kernel : ∀ t : Fin grid6.N, _)

theorem zRows (c : Dev nD) (t : Fin cfg6.N) (r : Fin 2000) (q : Fin 128) (k : Fin 50000)
    (hk : k.val = 2000 * t.val + r.val) :
    (iblk6 V c 0 t : Vec Ideal S2000x128 .f32) (ix2 r q) = (V c (Pipeline.arrRef spec6 0) : Arr ND) (ix2 k q) := by
  obtain ⟨e0, e1, -⟩ := blockPositions t
  unfold iblk6
  rw [View.read_apply]
  show V c (Pipeline.arrRef spec6 0) _ = V c (Pipeline.arrRef spec6 0) _
  congr 1
  funext a; apply Fin.ext
  match a with
  | ⟨0, _⟩ => show _ * 2000 + 1 * r.val = k.val; omega
  | ⟨1, _⟩ => show _ * 128 + 1 * q.val = q.val; omega

theorem meanRow (c : Dev nD) (t : Fin cfg6.N) (q : Fin 128) :
    (iblk6 V c 1 t : Vec Ideal S1x128 .f32) (ix2 0 q) = (V c (Pipeline.arrRef spec6 1) : Arr OD) (ix2 0 q) := by
  obtain ⟨-, -, e0, e1, -⟩ := blockPositions t
  unfold iblk6
  rw [View.read_apply]
  show V c _ _ = V c _ _
  congr 1
  funext a; apply Fin.ext
  match a with
  | ⟨0, _⟩ => show _ * 1 + 1 * 0 = 0; omega
  | ⟨1, _⟩ => show _ * 128 + 1 * q.val = q.val; omega

theorem varRow (c : Dev nD) (t : Fin cfg6.N) (q : Fin 128) :
    (iblk6 V c 2 t : Vec Ideal S1x128 .f32) (ix2 0 q) = (V c (Pipeline.arrRef spec6 2) : Arr OD) (ix2 0 q) := by
  obtain ⟨-, -, -, -, e0, e1, -⟩ := blockPositions t
  unfold iblk6
  rw [View.read_apply]
  show V c _ _ = V c _ _
  congr 1
  funext a; apply Fin.ext
  match a with
  | ⟨0, _⟩ => show _ * 1 + 1 * 0 = 0; omega
  | ⟨1, _⟩ => show _ * 128 + 1 * q.val = q.val; omega

theorem scaleRow (c : Dev nD) (t : Fin cfg6.N) (q : Fin 128) :
    (iblk6 V c 3 t : Vec Ideal S1x128 .f32) (ix2 0 q) = (V c (Pipeline.arrRef spec6 3) : Arr OD) (ix2 0 q) := by
  obtain ⟨-, -, -, -, -, -, e0, e1, -⟩ := blockPositions t
  unfold iblk6
  rw [View.read_apply]
  show V c _ _ = V c _ _
  congr 1
  funext a; apply Fin.ext
  match a with
  | ⟨0, _⟩ => show _ * 1 + 1 * 0 = 0; omega
  | ⟨1, _⟩ => show _ * 128 + 1 * q.val = q.val; omega

theorem shiftRow (c : Dev nD) (t : Fin cfg6.N) (q : Fin 128) :
    (iblk6 V c 4 t : Vec Ideal S1x128 .f32) (ix2 0 q) = (V c (Pipeline.arrRef spec6 4) : Arr OD) (ix2 0 q) := by
  obtain ⟨-, -, -, -, -, -, -, -, e0, e1, -⟩ := blockPositions t
  unfold iblk6
  rw [View.read_apply]
  show V c _ _ = V c _ _
  congr 1
  funext a; apply Fin.ext
  match a with
  | ⟨0, _⟩ => show _ * 1 + 1 * 0 = 0; omega
  | ⟨1, _⟩ => show _ * 128 + 1 * q.val = q.val; omega

theorem outRows (G : Arr ND) (c : Dev nD) (t : Fin cfg6.N) (r : Fin 2000) (q : Fin 128) (k : Fin 50000)
    (hk : k.val = 2000 * t.val + r.val) :
    (((cfg6.win 5).blk t).view.read (Elt Ideal) G : Vec Ideal S2000x128 .f32) (ix2 r q) = G (ix2 k q) := by
  obtain ⟨-, -, -, -, -, -, -, -, -, -, e0, e1⟩ := blockPositions t
  rw [View.read_apply]
  show G _ = G _
  congr 1
  funext a; apply Fin.ext
  match a with
  | ⟨0, _⟩ => show _ * 2000 + 1 * r.val = k.val; omega
  | ⟨1, _⟩ => show _ * 128 + 1 * q.val = q.val; omega

theorem writeBack_eq (c : Dev nD) (t : Fin cfg6.N) :
    (dat6 (F := Ideal) V c).flushed 5 t
      = ((cfg6.win 5).blk t).view.read (Elt Ideal)
          (bn (V c (Pipeline.arrRef spec6 0)) (V c (Pipeline.arrRef spec6 1)) (V c (Pipeline.arrRef spec6 2))
            (V c (Pipeline.arrRef spec6 3)) (V c (Pipeline.arrRef spec6 4))) := by
  show (cfg6.win 5).cut (grid6.coords t) ((dat6 V c).after 5 t) = _
  rw [after6_5]
  unfold out6_5
  rw [View.canon_unit_zero noOffset]
  simp only [View.ld_unit_zero (S := S2000x128) noOffset, View.ld_unit_zero (S := S1x128) noOffset]
  funext j
  obtain ⟨r, q, rfl⟩ : ∃ (r : Fin 2000) (q : Fin 128), j = ix2 r q := ⟨j 0, j 1, eq_ix2 j⟩
  have ht : t.val < 25 := t.isLt.trans_eq N_6
  have hk : 2000 * t.val + r.val < 50000 := by have := r.isLt; omega
  refine (bnBody_apply (iblk6 V c 0 t) (iblk6 V c 2 t) (iblk6 V c 1 t) (iblk6 V c 3 t) (iblk6 V c 4 t) r q).trans ?_
  refine Eq.trans ?_ ((outRows _ c t r q ⟨_, hk⟩ rfl).trans (bn_apply _ _ _ _ _ ⟨_, hk⟩ q)).symm
  exact bn_congr (zRows V c t r q ⟨_, hk⟩ rfl) (meanRow V c t q) (varRow V c t q) (scaleRow V c t q) (shiftRow V c t q)

theorem out_eq (c : Dev nD) :
    (dat6 (F := Ideal) V c).arrAt 5 cfg6.N
      = bn (V c (Pipeline.arrRef spec6 0)) (V c (Pipeline.arrRef spec6 1)) (V c (Pipeline.arrRef spec6 2))
          (V c (Pipeline.arrRef spec6 3)) (V c (Pipeline.arrRef spec6 4)) :=

  (dat6 (F := Ideal) V c).arrAt_eq_of_cover 5 _ (fun t _ => writeBack_eq V c t) fun i => by
    have h0 : (i 0).val < 50000 := (i 0).isLt
    have h1 : (i 1).val < 128 := (i 1).isLt
    have hN : cfg6.N = 25 := N_6
    let t : Fin cfg6.N := ⟨(i 0).val / 2000, by rw [hN]; omega⟩
    obtain ⟨-, -, -, -, -, -, -, -, -, -, e0, e1⟩ := blockPositions t
    have ht : t.val = (i 0).val / 2000 := rfl
    refine ⟨t, flush6_5 t, ?_⟩
    show i ∈ ((View.whole main_v74).slice ((cfg6.win 5).rect t)).set
    rw [View.set_slice_whole, Rect.mem_set_unit]
    intro a
    match a with
    | ⟨0, _⟩ => show _ * 2000 ≤ (i 0).val ∧ (i 0).val < _ * 2000 + 2000; omega
    | ⟨1, _⟩ => show _ * 128 ≤ (i 1).val ∧ (i 1).val < _ * 128 + 128; omega

end Cert.KernelIdeal.R6

end
-- ==== Proof.KLayer3.lean ====
import proofs.«407668_j26396869001791_1_alg».proof.Proof.KNames
import proofs.«407668_j26396869001791_1_alg».proof.Proof.KLayer2
import proofs.«407668_j26396869001791_1_alg».proof.Proof.KTake
import proofs.«407668_j26396869001791_1_alg».proof.Proof.R5
import proofs.«407668_j26396869001791_1_alg».proof.Proof.R6
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Agg GinSpec
open Idealize.ShloMosaic Idealize.ShloMosaic.TcCoe Idealize.SL.Sem Idealize.ShloMosaic.StableHlo

variable (m : (ℓ : Loc nD τ sig) → Buf (Elt Ideal) ℓ) (ρ : Dev nD → PrngReg)

def pre3 (c : Dev nD) : Arr ND :=
  gnnZ (table2 m c) (aggFill (edges m c) (table2 m c))
    (weightsAt (m ((c : Thread nD τ).loc main_arg4)) ![2, 0, 0] slices_S3x128x128_S1x128x128_2_0_0)
    (rowAt (m ((c : Thread nD τ).loc main_arg5)) ![2, 0] slices_S3x128_S1x128_2_0)

theorem src_in3 (c : Dev nD) : W12 m ρ c (Proc.devRef .tc main_v1) = srcOf (edges m c) := by
  repeat wstep
  try rfl
theorem dst_in3 (c : Dev nD) : W12 m ρ c (Proc.devRef .tc main_v3) = dstOf (edges m c) := by
  repeat wstep
  try rfl

theorem in5_0 (c : Dev nD) : V14 m ρ c (Pipeline.arrRef spec5 0) = table2 m c := by
  show W14 m ρ c (Proc.devRef .tc main_v51) = _
  wstep
  exact exit4 m ρ c

theorem in5_1 (c : Dev nD) : V14 m ρ c (Pipeline.arrRef spec5 1) = aggFill (edges m c) (table2 m c) := by
  show W14 m ρ c (Proc.devRef .tc main_v55) = _
  dsimp only [W14, W13]
  rw [hostOps5_eq]
  after_results_simp
  rw [exit4 m ρ c, src_in3 m ρ c, dst_in3 m ρ c]
  rfl

theorem in5_2 (c : Dev nD) : V14 m ρ c (Pipeline.arrRef spec5 2)
    = weightsAt (m ((c : Thread nD τ).loc main_arg4)) ![2, 0, 0] slices_S3x128x128_S1x128x128_2_0_0 := by
  show W14 m ρ c (Proc.devRef .tc main_v57) = _
  repeat wstep
  try rfl

theorem in5_3 (c : Dev nD) : V14 m ρ c (Pipeline.arrRef spec5 3)
    = rowAt (m ((c : Thread nD τ).loc main_arg5)) ![2, 0] slices_S3x128_S1x128_2_0 := by
  show W14 m ρ c (Proc.devRef .tc main_v60) = _
  repeat wstep
  try rfl

theorem entry5 (c : Dev nD) : R5.zOf (V14 m ρ) c = pre3 m c := by
  unfold R5.zOf pre3
  rw [in5_0 m ρ c, in5_1 m ρ c, in5_2 m ρ c, in5_3 m ρ c]

theorem exit5_z (c : Dev nD) : W15 m ρ c (Proc.devRef .tc main_v61_0) = pre3 m c :=
  (W15_arr m ρ c 4).trans ((R5.z_eq (V14 m ρ) c).trans (entry5 m ρ c))
theorem exit5_sum (c : Dev nD) : W15 m ρ c (Proc.devRef .tc main_v61_1) = colSum (pre3 m c) :=
  (W15_arr m ρ c 5).trans ((R5.sum_eq (V14 m ρ) c).trans (congrArg colSum (entry5 m ρ c)))
theorem exit5_sumsq (c : Dev nD) : W15 m ρ c (Proc.devRef .tc main_v61_2) = colSum (sq (pre3 m c)) :=
  (W15_arr m ρ c 6).trans ((R5.sumsq_eq (V14 m ρ) c).trans (congrArg (fun z => colSum (sq z)) (entry5 m ρ c)))

theorem in6_0 (c : Dev nD) : V16 m ρ c (Pipeline.arrRef spec6 0) = pre3 m c := by
  show W16 m ρ c (Proc.devRef .tc main_v61_0) = _
  wstep
  exact exit5_z m ρ c
theorem in6_1 (c : Dev nD) : V16 m ρ c (Pipeline.arrRef spec6 1) = overN (colSum (pre3 m c)) := by
  show W16 m ρ c (Proc.devRef .tc main_v63) = _
  wstep
  rw [exit5_sum m ρ c]
  rfl
theorem in6_2 (c : Dev nD) : V16 m ρ c (Pipeline.arrRef spec6 2)
    = varOfMoments (colSum (sq (pre3 m c))) (overN (colSum (pre3 m c))) := by
  show W16 m ρ c (Proc.devRef .tc main_v67) = _
  wstep
  rw [exit5_sumsq m ρ c, exit5_sum m ρ c]
  rfl
theorem in6_3 (c : Dev nD) : V16 m ρ c (Pipeline.arrRef spec6 3)
    = rowAt (m ((c : Thread nD τ).loc main_arg6)) ![2, 0] slices_S3x128_S1x128_2_0 := by
  show W16 m ρ c (Proc.devRef .tc main_v72) = _
  repeat wstep
  try rfl
theorem in6_4 (c : Dev nD) : V16 m ρ c (Pipeline.arrRef spec6 4)
    = rowAt (m ((c : Thread nD τ).loc main_arg7)) ![2, 0] slices_S3x128_S1x128_2_0 := by
  show W16 m ρ c (Proc.devRef .tc main_v73) = _
  repeat wstep
  try rfl

theorem exit6 (c : Dev nD) : W17 m ρ c (Proc.devRef .tc main_v74) = table3 m c := by
  refine (W17_arr m ρ c 5).trans ?_
  rw [R6.out_eq, in6_0 m ρ c, in6_1 m ρ c, in6_2 m ρ c, in6_3 m ρ c, in6_4 m ρ c]
  rfl

end Cert.KernelIdeal.Chain

end
-- ==== Proof.R7.lean ====
import proofs.«407668_j26396869001791_1_alg».proof.Proof.Gen.KernelIdeal.Frame
import proofs.«407668_j26396869001791_1_alg».proof.Proof.GnnLinear
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.R7

open Cert.KernelIdeal Cert.KernelIdeal.Gen Cert.KernelIdeal.Lin GinSpec
open Idealize.ShloMosaic Idealize.ShloMosaic.TcCoe Idealize.ShloMosaic.ValueIdx Idealize.SL.Sem
open Idealize.ShloMosaic.Pipeline (Dat)

theorem lhs_row (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl

theorem lhs_feat (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q

theorem rhs_feat (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q

theorem rhs_col (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

theorem product_apply (a : FVec Ideal S2000x128 .bf16) (b : FVec Ideal S128x1 .bf16) (r : Fin 2000) :
    matmul dot_S2000x128_S128x1_S2000x1_1_0_0_1_n_n none a b (constant S2000x1 .f32 0x00000000#32) (ix2 r 0)
      = ∑ k : Fin 128, a (ix2 r k) * b (ix2 k 0) := by
  refine (Ideal.matmul_constant_zero_apply dot_S2000x128_S128x1_S2000x1_1_0_0_1_n_n none a b (ix2 r 0)).trans ?_
  rw [← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 r 0) ((contrEquiv1 dot_S2000x128_S128x1_S2000x1_1_0_0_1_n_n 128 rfl rfl).symm k) = ix2 r k := funext fun a => Fin.ext (by
    match a with
    | ⟨0, _⟩ => exact lhs_row _ _
    | ⟨1, _⟩ => exact (lhs_feat _ _).trans hk)
  have er : dot_S2000x128_S128x1_S2000x1_1_0_0_1_n_n.rhsIdx (ix2 r 0) ((contrEquiv1 dot_S2000x128_S128x1_S2000x1_1_0_0_1_n_n 128 rfl rfl).symm k) = ix2 k 0 := funext fun a => Fin.ext (by
    match a with
    | ⟨0, _⟩ => exact (rhs_feat _ _).trans hk
    | ⟨1, _⟩ => exact rhs_col _ _)
  rw [el, er]

theorem bias_apply (x : FVec Ideal S1x1 .f32) (r : Fin 2000) :
    broadcastTo S2000x1 x broadcasts_S1x1_S2000x1 (ix2 r 0) = x (ix2 0 0) :=
  broadcastTo_apply x broadcasts_S1x1_S2000x1 (ix2 r 0) (ix2 0 0) fun a => by
    match a with
    | ⟨0, _⟩ => rfl
    | ⟨1, _⟩ => rfl

theorem body_apply (x0 : Vec Ideal S2000x128 .f32) (x1 : Vec Ideal S128x1 .f32) (x2 : Vec Ideal S1x1 .f32) (r : Fin 2000) :
    k7_pay1 x0 x1 x2 (ix2 r 0) = Ideal.logistic ((∑ k : Fin 128, x0 (ix2 r k) * x1 (ix2 k 0)) + x2 (ix2 0 0)) := by
  unfold k7_pay1
  show Ideal.logistic (matmul (F := Ideal) dot_S2000x128_S128x1_S2000x1_1_0_0_1_n_n none
      (truncf .bf16 (shapeCast S2000x128 x0 shapeCasts_S2000x128_S2000x128) bitsLt_bf16_f32) (truncf .bf16 x1 bitsLt_bf16_f32)
      (constant (F := Ideal) S2000x1 .f32 0x00000000#32) (ix2 r 0)
    + broadcastTo S2000x1 (shapeCast S1x1 x2 shapeCasts_S1x1_S1x1) broadcasts_S1x1_S2000x1 (ix2 r 0)) = _
  rw [product_apply, bias_apply, shapeCast_self, shapeCast_self]
  rfl

theorem block_indices : ∀ t : Fin cfg7.N, (cfg7.win 0).index t ⟨0, by decide⟩ = t.val ∧ (cfg7.win 0).index t ⟨1, by decide⟩ = 0
    ∧ (cfg7.win 1).index t ⟨0, by decide⟩ = 0 ∧ (cfg7.win 1).index t ⟨1, by decide⟩ = 0 ∧ (cfg7.win 2).index t ⟨0, by decide⟩ = 0 ∧ (cfg7.win 2).index t ⟨1, by decide⟩ = 0
    ∧ (cfg7.win 3).index t ⟨0, by decide⟩ = t.val ∧ (cfg7.win 3).index t ⟨1, by decide⟩ = 0 :=
  (by decide +kernel : ∀ t : Fin grid7.N, _)

variable (V : (c : Dev nD) → (b : Ref sig .tc) → Buf (Elt Ideal) ((c : Thread nD τ).loc b))

/-- Point t's block of the result is rows 2000·t … of the head's column. -/
theorem written_back_eq (c : Dev nD) (t : Fin cfg7.N) :
    (dat7 (F := Ideal) V c).flushed 3 t
      = ((cfg7.win 3).blk t).view.read (Elt Ideal)
          (head (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero noOffset]
  simp only [View.ld_unit_zero (S := S2000x128) noOffset, View.ld_unit_zero (S := S128x1) noOffset, View.ld_unit_zero (S := S1x1) noOffset]
  have hb := block_indices t
  have hN : t.val < 25 := t.isLt.trans_eq N_7
  refine funext fun (j : S2000x1.Idx) => ?_
  obtain ⟨r, q, rfl⟩ : ∃ (r : Fin 2000) (q : Fin 1), j = ix2 r q := ⟨j 0, j 1, eq_ix2 j⟩
  obtain rfl : q = 0 := Subsingleton.elim _ _
  have hp : 2000 * t.val + r.val < 50000 := by have := r.isLt; omega
  have hemb : ((cfg7.win 3).blk t).view.emb (ix2 r 0) = (ix2 ⟨2000 * t.val + r.val, hp⟩ 0 : S50000x1.Idx) := by
    funext a
    apply Fin.ext
    match a with
    | ⟨0, _⟩ => show _ * 2000 + 1 * r.val = 2000 * t.val + r.val; omega
    | ⟨1, _⟩ => show _ * 1 + 1 * 0 = 0; omega
  show k7_pay1 (iblk7 V c 0 t) (iblk7 V c 1 t) (iblk7 V c 2 t) (ix2 r 0)
    = head (V c (Pipeline.arrRef spec7 0)) (V c (Pipeline.arrRef spec7 1)) (V c (Pipeline.arrRef spec7 2))
        (((cfg7.win 3).blk t).view.emb (ix2 r 0))
  rw [hemb, head_apply]
  refine (body_apply (iblk7 V c 0 t) (iblk7 V c 1 t) (iblk7 V c 2 t) r).trans ?_
  refine congrArg Ideal.logistic (congrArg₂ (· + ·) (Finset.sum_congr rfl fun k _ => congrArg₂ (· * ·) ?_ ?_) ?_)
  · exact congrArg (V c _) (funext fun a => Fin.ext (by
      match a with
      | ⟨0, _⟩ => show _ * 2000 + 1 * r.val = 2000 * t.val + r.val; omega
      | ⟨1, _⟩ => show _ * 128 + 1 * k.val = k.val; omega))
  · exact congrArg (V c _) (funext fun a => Fin.ext (by
      match a with
      | ⟨0, _⟩ => show _ * 128 + 1 * k.val = k.val; omega
      | ⟨1, _⟩ => show _ * 1 + 1 * 0 = 0; omega))
  · exact congrArg (V c _) (funext fun a => Fin.ext (by
      match a with
      | ⟨0, _⟩ => show _ * 1 + 1 * 0 = 0; omega
      | ⟨1, _⟩ => show _ * 1 + 1 * 0 = 0; omega))

/-- After the region its output array is the head's column: row p lies in the block of point p / 2000. -/
theorem out_eq (c : Dev nD) :
    (dat7 (F := Ideal) V c).arrAt 3 cfg7.N
      = head (V c (Pipeline.arrRef spec7 0)) (V c (Pipeline.arrRef spec7 1)) (V c (Pipeline.arrRef spec7 2)) :=
  (dat7 (F := Ideal) V c).arrAt_eq_of_cover 3 _ (fun t _ => written_back_eq V c t) fun i => by
    have h0 : (i 0).val < 50000 := (i 0).isLt
    have h1 : (i 1).val < 1 := (i 1).isLt
    have hN : cfg7.N = 25 := N_7
    let t : Fin cfg7.N := ⟨(i 0).val / 2000, by rw [hN]; omega⟩
    have hb := block_indices t
    have ht : t.val = (i 0).val / 2000 := rfl
    refine ⟨t, flush7_3 t, ?_⟩
    show i ∈ ((View.whole main_v76).slice ((cfg7.win 3).rect t)).set
    rw [View.set_slice_whole, Rect.mem_set_unit]
    intro a
    match a with
    | ⟨0, _⟩ => show _ * 2000 ≤ (i 0).val ∧ (i 0).val < _ * 2000 + 2000; omega
    | ⟨1, _⟩ => show _ * 1 ≤ (i 1).val ∧ (i 1).val < _ * 1 + 1; omega

end Cert.KernelIdeal.R7

end
-- ==== Proof.KHead.lean ====
import proofs.«407668_j26396869001791_1_alg».proof.Proof.KNames
import proofs.«407668_j26396869001791_1_alg».proof.Proof.KLayer3
import proofs.«407668_j26396869001791_1_alg».proof.Proof.R7
import proofs.«407668_j26396869001791_1_alg».proof.Proof.RunResults
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Agg GinSpec
open Idealize.ShloMosaic Idealize.ShloMosaic.TcCoe Idealize.SL.Sem Idealize.ShloMosaic.StableHlo

variable (m : (ℓ : Loc nD τ sig) → Buf (Elt Ideal) ℓ) (ρ : Dev nD → PrngReg)

theorem in7_0 (c : Dev nD) : V18 m ρ c (Pipeline.arrRef spec7 0) = table3 m c := by
  show W18 m ρ c (Proc.devRef .tc main_v74) = _
  wstep
  exact exit6 m ρ c

theorem in7_1 (c : Dev nD) : V18 m ρ c (Pipeline.arrRef spec7 1) = m ((c : Thread nD τ).loc main_arg8) := by
  show W18 m ρ c (Proc.devRef .tc main_arg8) = _
  repeat wstep
  try rfl

theorem in7_2 (c : Dev nD) : V18 m ρ c (Pipeline.arrRef spec7 2) = biasHead m c := by
  show W18 m ρ c (Proc.devRef .tc main_v75) = _
  repeat wstep
  try rfl

theorem exit7 (c : Dev nD) : W19 m ρ c (Proc.devRef .tc main_v76) = outCol m c := by
  refine (W19_arr m ρ c 3).trans ?_
  rw [R7.out_eq, in7_0 m ρ c, in7_1 m ρ c, in7_2 m ρ c]
  rfl

theorem table_at19 (c : Dev nD) : W19 m ρ c (Proc.devRef .tc main_v74) = table3 m c :=
  (W19_arr m ρ c 0).trans ((((dat7 (V18 m ρ) c).arrAt_in 0 rfl _).trans (A_eq7 (V18 m ρ) c 0)).trans (in7_0 m ρ c))

theorem run : θ_run defs (onTc (τ := τ) (main (F := Ideal))) ⟨m, fun _ => 0, ρ⟩ (fun r => ∀ c : Dev nD,
      r.2.mem ((c.tc : Thread nD τ).loc main_v76) = outCol m c
      ∧ r.2.mem ((c.tc : Thread nD τ).loc main_v74) = table3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (exit7 m ρ c), (h c).2.1.trans (table_at19 m ρ c), (h c).2.2⟩)
    (run_results m ρ)

end Cert.KernelIdeal.Chain

end
-- ==== Proof.RefStages.lean ====
import proofs.«407668_j26396869001791_1_alg».proof.Proof.Gen.ReferenceIdeal
import proofs.«407668_j26396869001791_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Stages

open Cert.ReferenceIdeal Cert.ReferenceIdeal.Gen GinSpec
open Idealize.ShloMosaic Idealize.ShloMosaic.ValueIdx Idealize.ShloMosaic.TcCoe Idealize.SL.Sem

def row (v : FVec Ideal S128 .f32) : Arr OD := fun j => v (ix1 (j 1))

def cell (v : FVec Ideal S1 .f32) : Arr OO := fun _ => v (ix1 0)

def rows (v : FVec Ideal S128 .f32) : FVec Ideal S50000x128 .f32 :=
  broadcastInDim S50000x128 ![0, 1] bcast_S1x128_S50000x128_0_1 (broadcastInDim S1x128 ![1] bcast_S128_S1x128_1 v)

def zeroTable : FVec Ideal S50000x128 .f32 :=
  broadcastInDim S50000x128 ![] bcast_S_S50000x128 (constant S_ .f32 0x00000000#32)

def refH0 (x0 : FVec Ideal S50000x128 .f32) (x2 : FVec Ideal S128x128 .f32) (x3 : FVec Ideal S128 .f32) : FVec Ideal S50000x128 .f32 :=
  maximumf (addf (Host.dotGeneral dot_S50000x128_S128x128_S50000x128_1_0_0_1_n_n none x0 x2) (rows x3)) zeroTable

def srcOf (e : IVec S2x800000 32) : IVec S800000 32 :=
  shapeCast S800000 (extractStridedSlice S1x800000 ![0, 0] e slices_S2x800000_S1x800000_0_0) shapeCasts_S1x800000_S800000
def dstOf (e : IVec S2x800000 32) : IVec S800000 32 :=
  shapeCast S800000 (extractStridedSlice S1x800000 ![1, 0] e slices_S2x800000_S1x800000_1_0) shapeCasts_S1x800000_S800000

def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def refAgg (src dst : IVec S800000 32) (h : Arr ND) : Arr ND :=
  Host.scatterAdd scatter_S50000x128_S800000x1_S800000x128_1_0_0_1 zeroTable
    (broadcastInDim S800000x1 ![0] bcast_S800000_S800000x1_0 dst)
    (Host.gather gather_S50000x128_S800000x1_S800000x128_1_0_n_n_0_1_1128 h (wrapIdx src))

def nodesVec : FVec Ideal S128 .f32 := broadcastInDim S128 ![] bcast_S_S128 (constant S_ .f32 0x47435000#32)
def epsVec : FVec Ideal S128 .f32 := broadcastInDim S128 ![] bcast_S_S128 (constant S_ .f32 0x3727C5AC#32)

def colSumHost (z : FVec Ideal S50000x128 .f32) : FVec Ideal S128 .f32 :=
  Host.reduceAdd z (constant S_ .f32 0x00000000#32) reducesTo_S50000x128_S128_d0 h_S_

def refLayer (src dst : IVec S800000 32) (h : FVec Ideal S50000x128 .f32) (w : FVec Ideal S128x128 .f32)
    (b g be : FVec Ideal S128 .f32) : FVec Ideal S50000x128 .f32 :=
  maximumf
    (addf
      (mulf
        (mulf
          (subf (addf (Host.dotGeneral dot_S50000x128_S128x128_S50000x128_1_0_0_1_n_n none (addf h (refAgg src dst h)) w) (rows b))
            (rows (Host.divf (colSumHost (addf (Host.dotGeneral dot_S50000x128_S128x128_S50000x128_1_0_0_1_n_n none (addf h (refAgg src dst h)) w) (rows b))) nodesVec)))
          (rows (Host.rsqrt (addf
            (Host.divf (colSumHost (mulf
              (subf (addf (Host.dotGeneral dot_S50000x128_S128x128_S50000x128_1_0_0_1_n_n none (addf h (refAgg src dst h)) w) (rows b))
                (rows (Host.divf (colSumHost (addf (Host.dotGeneral dot_S50000x128_S128x128_S50000x128_1_0_0_1_n_n none (addf h (refAgg src dst h)) w) (rows b))) nodesVec)))
              (subf (addf (Host.dotGeneral dot_S50000x128_S128x128_S50000x128_1_0_0_1_n_n none (addf h (refAgg src dst h)) w) (rows b))
                (rows (Host.divf (colSumHost (addf (Host.dotGeneral dot_S50000x128_S128x128_S50000x128_1_0_0_1_n_n none (addf h (refAgg src dst h)) w) (rows b))) nodesVec))))) nodesVec)
            epsVec))))
        (rows g))
      (rows be))
    zeroTable

def refHead (h : FVec Ideal S50000x128 .f32) (x8 : FVec Ideal S128x1 .f32) (x9 : FVec Ideal S1 .f32) : FVec Ideal S50000x1 .f32 :=
  Host.divf (broadcastInDim S50000x1 ![] bcast_S_S50000x1 (constant S_ .f32 0x3F800000#32))
    (addf (broadcastInDim S50000x1 ![] bcast_S_S50000x1 (constant S_ .f32 0x3F800000#32))
      (Host.exp (Host.negf (addf (Host.dotGeneral dot_S50000x128_S128x1_S50000x1_1_0_0_1_n_n none h x8)
        (broadcastInDim S50000x1 ![0, 1] bcast_S1x1_S50000x1_0_1 (broadcastInDim S1x1 ![1] bcast_S1_S1x1_1 x9))))))

section Names

variable (m : (ℓ : Loc nD τ sig) → Buf (Elt Ideal) ℓ)

def weightsAt (x : FVec Ideal S3x128x128 .f32) (off : Fin 3 → Nat) (hs : S3x128x128.Slices off S1x128x128) : FVec Ideal S128x128 .f32 :=
  shapeCast S128x128 (extractStridedSlice S1x128x128 off x hs) shapeCasts_S1x128x128_S128x128

def vectorAt (x : FVec Ideal S3x128 .f32) (off : Fin 2 → Nat) (hs : S3x128.Slices off S1x128) : FVec Ideal S128 .f32 :=
  shapeCast S128 (extractStridedSlice S1x128 off x hs) shapeCasts_S1x128_S128

def rLayer (c : Dev nD) (h : FVec Ideal S50000x128 .f32) (off3 : Fin 3 → Nat) (hs3 : S3x128x128.Slices off3 S1x128x128)
    (off2 : Fin 2 → Nat) (hs2 : S3x128.Slices off2 S1x128) : FVec Ideal S50000x128 .f32 :=
  refLayer (srcOf (m ((c.tc : Thread nD τ).loc main_arg1))) (dstOf (m ((c.tc : Thread nD τ).loc main_arg1))) h
    (weightsAt (m ((c.tc : Thread nD τ).loc main_arg4)) off3 hs3) (vectorAt (m ((c.tc : Thread nD τ).loc main_arg5)) off2 hs2)
    (vectorAt (m ((c.tc : Thread nD τ).loc main_arg6)) off2 hs2) (vectorAt (m ((c.tc : Thread nD τ).loc main_arg7)) off2 hs2)

def rTable0 (c : Dev nD) : FVec Ideal S50000x128 .f32 :=
  refH0 (m ((c.tc : Thread nD τ).loc main_arg0)) (m ((c.tc : Thread nD τ).loc main_arg2)) (m ((c.tc : Thread nD τ).loc main_arg3))
def rTable1 (c : Dev nD) : FVec Ideal S50000x128 .f32 :=
  rLayer m c (rTable0 m c) ![0, 0, 0] slices_S3x128x128_S1x128x128_0_0_0 ![0, 0] slices_S3x128_S1x128_0_0
def rTable2 (c : Dev nD) : FVec Ideal S50000x128 .f32 :=
  rLayer m c (rTable1 m c) ![1, 0, 0] slices_S3x128x128_S1x128x128_1_0_0 ![1, 0] slices_S3x128_S1x128_1_0
def rTable3 (c : Dev nD) : FVec Ideal S50000x128 .f32 :=
  rLayer m c (rTable2 m c) ![2, 0, 0] slices_S3x128x128_S1x128x128_2_0_0 ![2, 0] slices_S3x128_S1x128_2_0

def rOut (c : Dev nD) : FVec Ideal S50000x1 .f32 := refHead (rTable3 m c) (m ((c.tc : Thread nD τ).loc main_arg8)) (m ((c.tc : Thread nD τ).loc main_arg9))

end Names

end Cert.ReferenceIdeal.Stages

end
-- ==== Proof.RefFold.lean ====
import proofs.«407668_j26396869001791_1_alg».proof.Proof.RefStages
import Idealize.ShloMosaic.Lib.StableHlo.Run

noncomputable section

namespace Cert.ReferenceIdeal.RunHand

open Cert.ReferenceIdeal Cert.ReferenceIdeal.Gen Cert.ReferenceIdeal.Stages GinSpec
open Idealize.ShloMosaic Idealize.ShloMosaic.TcCoe Idealize.SL.Sem Idealize.ShloMosaic.StableHlo

variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

abbrev opsA : List (HloOp τ sig (Elt F)) :=
  [ unary main_arg1 main_v0 ((extractStridedSlice S1x800000 ![0, 0] · slices_S2x800000_S1x800000_0_0)),
    reshape main_v0 main_v1 rfl shapeCasts_S1x800000_S800000,
    unary main_arg1 main_v2 ((extractStridedSlice S1x800000 ![1, 0] · slices_S2x800000_S1x800000_1_0)),
    reshape main_v2 main_v3 rfl shapeCasts_S1x800000_S800000,
    binary main_arg0 main_arg2 main_v4 ((fun l r => Host.dotGeneral dot_S50000x128_S128x128_S50000x128_1_0_0_1_n_n none l r)),
    unary main_arg3 main_v5 (broadcastInDim S1x128 ![1] bcast_S128_S1x128_1),
    unary main_v5 main_v6 (broadcastInDim S50000x128 ![0, 1] bcast_S1x128_S50000x128_0_1),
    binary main_v4 main_v6 main_v7 (addf),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v7) (TRef.of (T := ⟨S50000x128, .f32⟩) main_call0_v0) (TRef.of (T := ⟨S50000x128, .f32⟩) main_v8) maximumf ]

abbrev opsB1 : List (HloOp τ sig (Elt F)) :=
  [ nullary main_c (constantI S_ 32 0#32),
    unary main_c main_v9 (broadcastInDim S800000 ![] bcast_S_S800000),
    binary main_v1 main_v9 main_v10 (cmpi .slt),
    nullary main_c_0 (constantI S_ 32 50000#32),
    unary main_c_0 main_v11 (broadcastInDim S800000 ![] bcast_S_S800000),
    binary main_v1 main_v11 main_v12 (addi),
    ternary main_v10 main_v12 main_v1 main_v13 (select),
    unary main_v13 main_v14 (broadcastInDim S800000x1 ![0] bcast_S800000_S800000x1_0),
    binary main_v8 main_v14 main_v15 ((fun x i => Host.gather gather_S50000x128_S800000x1_S800000x128_1_0_n_n_0_1_1128 x i)),
    nullary main_cst (constant S_ .f32 0x00000000#32),
    unary main_cst main_v16 (broadcastInDim S50000x128 ![] bcast_S_S50000x128),
    unary main_v3 main_v17 (broadcastInDim S800000x1 ![0] bcast_S800000_S800000x1_0),
    ternary main_v16 main_v17 main_v15 main_v18 ((fun x i u => Host.scatterAdd scatter_S50000x128_S800000x1_S800000x128_1_0_0_1 x i u)),
    binary main_v8 main_v18 main_v19 (addf),
    unary main_arg4 main_v20 ((extractStridedSlice S1x128x128 ![0, 0, 0] · slices_S3x128x128_S1x128x128_0_0_0)),
    reshape main_v20 main_v21 rfl shapeCasts_S1x128x128_S128x128,
    binary main_v19 main_v21 main_v22 ((fun l r => Host.dotGeneral dot_S50000x128_S128x128_S50000x128_1_0_0_1_n_n none l r)),
    unary main_arg5 main_v23 ((extractStridedSlice S1x128 ![0, 0] · slices_S3x128_S1x128_0_0)),
    reshape main_v23 main_v24 rfl shapeCasts_S1x128_S128,
    unary main_v24 main_v25 (broadcastInDim S1x128 ![1] bcast_S128_S1x128_1),
    unary main_v25 main_v26 (broadcastInDim S50000x128 ![0, 1] bcast_S1x128_S50000x128_0_1),
    binary main_v22 main_v26 main_v27 (addf),
    nullary main_cst_1 (constant S_ .f32 0x00000000#32),
    binary main_v27 main_cst_1 main_v28 ((fun x v => Host.reduceAdd x v reducesTo_S50000x128_S128_d0 h_S_)),
    nullary main_cst_2 (constant S_ .f32 0x47435000#32),
    unary main_cst_2 main_v29 (broadcastInDim S128 ![] bcast_S_S128),
    binary main_v28 main_v29 main_v30 (Host.divf),
    unary main_v30 main_v31 (broadcastInDim S1x128 ![1] bcast_S128_S1x128_1),
    unary main_v31 main_v32 (broadcastInDim S50000x128 ![0, 1] bcast_S1x128_S50000x128_0_1),
    binary main_v27 main_v32 main_v33 (subf),
    binary main_v33 main_v33 main_v34 (mulf),
    nullary main_cst_3 (constant S_ .f32 0x00000000#32),
    binary main_v34 main_cst_3 main_v35 ((fun x v => Host.reduceAdd x v reducesTo_S50000x128_S128_d0 h_S_)),
    nullary main_cst_4 (constant S_ .f32 0x47435000#32),
    unary main_cst_4 main_v36 (broadcastInDim S128 ![] bcast_S_S128),
    binary main_v35 main_v36 main_v37 (Host.divf),
    unary main_v30 main_v38 (broadcastInDim S1x128 ![1] bcast_S128_S1x128_1),
    unary main_v38 main_v39 (broadcastInDim S50000x128 ![0, 1] bcast_S1x128_S50000x128_0_1),
    binary main_v27 main_v39 main_v40 (subf),
    nullary main_cst_5 (constant S_ .f32 0x3727C5AC#32),
    unary main_cst_5 main_v41 (broadcastInDim S128 ![] bcast_S_S128),
    binary main_v37 main_v41 main_v42 (addf),
    unary main_v42 main_v43 (Host.rsqrt),
    unary main_v43 main_v44 (broadcastInDim S1x128 ![1] bcast_S128_S1x128_1),
    unary main_v44 main_v45 (broadcastInDim S50000x128 ![0, 1] bcast_S1x128_S50000x128_0_1),
    binary main_v40 main_v45 main_v46 (mulf),
    unary main_arg6 main_v47 ((extractStridedSlice S1x128 ![0, 0] · slices_S3x128_S1x128_0_0)),
    reshape main_v47 main_v48 rfl shapeCasts_S1x128_S128,
    unary main_v48 main_v49 (broadcastInDim S1x128 ![1] bcast_S128_S1x128_1),
    unary main_v49 main_v50 (broadcastInDim S50000x128 ![0, 1] bcast_S1x128_S50000x128_0_1),
    binary main_v46 main_v50 main_v51 (mulf),
    unary main_arg7 main_v52 ((extractStridedSlice S1x128 ![0, 0] · slices_S3x128_S1x128_0_0)),
    reshape main_v52 main_v53 rfl shapeCasts_S1x128_S128,
    unary main_v53 main_v54 (broadcastInDim S1x128 ![1] bcast_S128_S1x128_1),
    unary main_v54 main_v55 (broadcastInDim S50000x128 ![0, 1] bcast_S1x128_S50000x128_0_1),
    binary main_v51 main_v55 main_v56 (addf),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v56) (TRef.of (T := ⟨S50000x128, .f32⟩) main_call1_v0) (TRef.of (T := ⟨S50000x128, .f32⟩) main_v57) maximumf ]

abbrev opsB2 : List (HloOp τ sig (Elt F)) :=
  [ nullary main_c_6 (constantI S_ 32 0#32),
    unary main_c_6 main_v58 (broadcastInDim S800000 ![] bcast_S_S800000),
    binary main_v1 main_v58 main_v59 (cmpi .slt),
    nullary main_c_7 (constantI S_ 32 50000#32),
    unary main_c_7 main_v60 (broadcastInDim S800000 ![] bcast_S_S800000),
    binary main_v1 main_v60 main_v61 (addi),
    ternary main_v59 main_v61 main_v1 main_v62 (select),
    unary main_v62 main_v63 (broadcastInDim S800000x1 ![0] bcast_S800000_S800000x1_0),
    binary main_v57 main_v63 main_v64 ((fun x i => Host.gather gather_S50000x128_S800000x1_S800000x128_1_0_n_n_0_1_1128 x i)),
    nullary main_cst_8 (constant S_ .f32 0x00000000#32),
    unary main_cst_8 main_v65 (broadcastInDim S50000x128 ![] bcast_S_S50000x128),
    unary main_v3 main_v66 (broadcastInDim S800000x1 ![0] bcast_S800000_S800000x1_0),
    ternary main_v65 main_v66 main_v64 main_v67 ((fun x i u => Host.scatterAdd scatter_S50000x128_S800000x1_S800000x128_1_0_0_1 x i u)),
    binary main_v57 main_v67 main_v68 (addf),
    unary main_arg4 main_v69 ((extractStridedSlice S1x128x128 ![1, 0, 0] · slices_S3x128x128_S1x128x128_1_0_0)),
    reshape main_v69 main_v70 rfl shapeCasts_S1x128x128_S128x128,
    binary main_v68 main_v70 main_v71 ((fun l r => Host.dotGeneral dot_S50000x128_S128x128_S50000x128_1_0_0_1_n_n none l r)),
    unary main_arg5 main_v72 ((extractStridedSlice S1x128 ![1, 0] · slices_S3x128_S1x128_1_0)),
    reshape main_v72 main_v73 rfl shapeCasts_S1x128_S128,
    unary main_v73 main_v74 (broadcastInDim S1x128 ![1] bcast_S128_S1x128_1),
    unary main_v74 main_v75 (broadcastInDim S50000x128 ![0, 1] bcast_S1x128_S50000x128_0_1),
    binary main_v71 main_v75 main_v76 (addf),
    nullary main_cst_9 (constant S_ .f32 0x00000000#32),
    binary main_v76 main_cst_9 main_v77 ((fun x v => Host.reduceAdd x v reducesTo_S50000x128_S128_d0 h_S_)),
    nullary main_cst_10 (constant S_ .f32 0x47435000#32),
    unary main_cst_10 main_v78 (broadcastInDim S128 ![] bcast_S_S128),
    binary main_v77 main_v78 main_v79 (Host.divf),
    unary main_v79 main_v80 (broadcastInDim S1x128 ![1] bcast_S128_S1x128_1),
    unary main_v80 main_v81 (broadcastInDim S50000x128 ![0, 1] bcast_S1x128_S50000x128_0_1),
    binary main_v76 main_v81 main_v82 (subf),
    binary main_v82 main_v82 main_v83 (mulf),
    nullary main_cst_11 (constant S_ .f32 0x00000000#32),
    binary main_v83 main_cst_11 main_v84 ((fun x v => Host.reduceAdd x v reducesTo_S50000x128_S128_d0 h_S_)),
    nullary main_cst_12 (constant S_ .f32 0x47435000#32),
    unary main_cst_12 main_v85 (broadcastInDim S128 ![] bcast_S_S128),
    binary main_v84 main_v85 main_v86 (Host.divf),
    unary main_v79 main_v87 (broadcastInDim S1x128 ![1] bcast_S128_S1x128_1),
    unary main_v87 main_v88 (broadcastInDim S50000x128 ![0, 1] bcast_S1x128_S50000x128_0_1),
    binary main_v76 main_v88 main_v89 (subf),
    nullary main_cst_13 (constant S_ .f32 0x3727C5AC#32),
    unary main_cst_13 main_v90 (broadcastInDim S128 ![] bcast_S_S128),
    binary main_v86 main_v90 main_v91 (addf),
    unary main_v91 main_v92 (Host.rsqrt),
    unary main_v92 main_v93 (broadcastInDim S1x128 ![1] bcast_S128_S1x128_1),
    unary main_v93 main_v94 (broadcastInDim S50000x128 ![0, 1] bcast_S1x128_S50000x128_0_1),
    binary main_v89 main_v94 main_v95 (mulf),
    unary main_arg6 main_v96 ((extractStridedSlice S1x128 ![1, 0] · slices_S3x128_S1x128_1_0)),
    reshape main_v96 main_v97 rfl shapeCasts_S1x128_S128,
    unary main_v97 main_v98 (broadcastInDim S1x128 ![1] bcast_S128_S1x128_1),
    unary main_v98 main_v99 (broadcastInDim S50000x128 ![0, 1] bcast_S1x128_S50000x128_0_1),
    binary main_v95 main_v99 main_v100 (mulf),
    unary main_arg7 main_v101 ((extractStridedSlice S1x128 ![1, 0] · slices_S3x128_S1x128_1_0)),
    reshape main_v101 main_v102 rfl shapeCasts_S1x128_S128,
    unary main_v102 main_v103 (broadcastInDim S1x128 ![1] bcast_S128_S1x128_1),
    unary main_v103 main_v104 (broadcastInDim S50000x128 ![0, 1] bcast_S1x128_S50000x128_0_1),
    binary main_v100 main_v104 main_v105 (addf),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v105) (TRef.of (T := ⟨S50000x128, .f32⟩) main_call2_v0) (TRef.of (T := ⟨S50000x128, .f32⟩) main_v106) maximumf ]

abbrev opsB3 : List (HloOp τ sig (Elt F)) :=
  [ nullary main_c_14 (constantI S_ 32 0#32),
    unary main_c_14 main_v107 (broadcastInDim S800000 ![] bcast_S_S800000),
    binary main_v1 main_v107 main_v108 (cmpi .slt),
    nullary main_c_15 (constantI S_ 32 50000#32),
    unary main_c_15 main_v109 (broadcastInDim S800000 ![] bcast_S_S800000),
    binary main_v1 main_v109 main_v110 (addi),
    ternary main_v108 main_v110 main_v1 main_v111 (select),
    unary main_v111 main_v112 (broadcastInDim S800000x1 ![0] bcast_S800000_S800000x1_0),
    binary main_v106 main_v112 main_v113 ((fun x i => Host.gather gather_S50000x128_S800000x1_S800000x128_1_0_n_n_0_1_1128 x i)),
    nullary main_cst_16 (constant S_ .f32 0x00000000#32),
    unary main_cst_16 main_v114 (broadcastInDim S50000x128 ![] bcast_S_S50000x128),
    unary main_v3 main_v115 (broadcastInDim S800000x1 ![0] bcast_S800000_S800000x1_0),
    ternary main_v114 main_v115 main_v113 main_v116 ((fun x i u => Host.scatterAdd scatter_S50000x128_S800000x1_S800000x128_1_0_0_1 x i u)),
    binary main_v106 main_v116 main_v117 (addf),
    unary main_arg4 main_v118 ((extractStridedSlice S1x128x128 ![2, 0, 0] · slices_S3x128x128_S1x128x128_2_0_0)),
    reshape main_v118 main_v119 rfl shapeCasts_S1x128x128_S128x128,
    binary main_v117 main_v119 main_v120 ((fun l r => Host.dotGeneral dot_S50000x128_S128x128_S50000x128_1_0_0_1_n_n none l r)),
    unary main_arg5 main_v121 ((extractStridedSlice S1x128 ![2, 0] · slices_S3x128_S1x128_2_0)),
    reshape main_v121 main_v122 rfl shapeCasts_S1x128_S128,
    unary main_v122 main_v123 (broadcastInDim S1x128 ![1] bcast_S128_S1x128_1),
    unary main_v123 main_v124 (broadcastInDim S50000x128 ![0, 1] bcast_S1x128_S50000x128_0_1),
    binary main_v120 main_v124 main_v125 (addf),
    nullary main_cst_17 (constant S_ .f32 0x00000000#32),
    binary main_v125 main_cst_17 main_v126 ((fun x v => Host.reduceAdd x v reducesTo_S50000x128_S128_d0 h_S_)),
    nullary main_cst_18 (constant S_ .f32 0x47435000#32),
    unary main_cst_18 main_v127 (broadcastInDim S128 ![] bcast_S_S128),
    binary main_v126 main_v127 main_v128 (Host.divf),
    unary main_v128 main_v129 (broadcastInDim S1x128 ![1] bcast_S128_S1x128_1),
    unary main_v129 main_v130 (broadcastInDim S50000x128 ![0, 1] bcast_S1x128_S50000x128_0_1),
    binary main_v125 main_v130 main_v131 (subf),
    binary main_v131 main_v131 main_v132 (mulf),
    nullary main_cst_19 (constant S_ .f32 0x00000000#32),
    binary main_v132 main_cst_19 main_v133 ((fun x v => Host.reduceAdd x v reducesTo_S50000x128_S128_d0 h_S_)),
    nullary main_cst_20 (constant S_ .f32 0x47435000#32),
    unary main_cst_20 main_v134 (broadcastInDim S128 ![] bcast_S_S128),
    binary main_v133 main_v134 main_v135 (Host.divf),
    unary main_v128 main_v136 (broadcastInDim S1x128 ![1] bcast_S128_S1x128_1),
    unary main_v136 main_v137 (broadcastInDim S50000x128 ![0, 1] bcast_S1x128_S50000x128_0_1),
    binary main_v125 main_v137 main_v138 (subf),
    nullary main_cst_21 (constant S_ .f32 0x3727C5AC#32),
    unary main_cst_21 main_v139 (broadcastInDim S128 ![] bcast_S_S128),
    binary main_v135 main_v139 main_v140 (addf),
    unary main_v140 main_v141 (Host.rsqrt),
    unary main_v141 main_v142 (broadcastInDim S1x128 ![1] bcast_S128_S1x128_1),
    unary main_v142 main_v143 (broadcastInDim S50000x128 ![0, 1] bcast_S1x128_S50000x128_0_1),
    binary main_v138 main_v143 main_v144 (mulf),
    unary main_arg6 main_v145 ((extractStridedSlice S1x128 ![2, 0] · slices_S3x128_S1x128_2_0)),
    reshape main_v145 main_v146 rfl shapeCasts_S1x128_S128,
    unary main_v146 main_v147 (broadcastInDim S1x128 ![1] bcast_S128_S1x128_1),
    unary main_v147 main_v148 (broadcastInDim S50000x128 ![0, 1] bcast_S1x128_S50000x128_0_1),
    binary main_v144 main_v148 main_v149 (mulf),
    unary main_arg7 main_v150 ((extractStridedSlice S1x128 ![2, 0] · slices_S3x128_S1x128_2_0)),
    reshape main_v150 main_v151 rfl shapeCasts_S1x128_S128,
    unary main_v151 main_v152 (broadcastInDim S1x128 ![1] bcast_S128_S1x128_1),
    unary main_v152 main_v153 (broadcastInDim S50000x128 ![0, 1] bcast_S1x128_S50000x128_0_1),
    binary main_v149 main_v153 main_v154 (addf),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v154) (TRef.of (T := ⟨S50000x128, .f32⟩) main_call3_v0) (TRef.of (T := ⟨S50000x128, .f32⟩) main_v155) maximumf ]

abbrev opsC : List (HloOp τ sig (Elt F)) :=
  [ binary main_v155 main_arg8 main_v156 ((fun l r => Host.dotGeneral dot_S50000x128_S128x1_S50000x1_1_0_0_1_n_n none l r)),
    unary main_arg9 main_v157 (broadcastInDim S1x1 ![1] bcast_S1_S1x1_1),
    unary main_v157 main_v158 (broadcastInDim S50000x1 ![0, 1] bcast_S1x1_S50000x1_0_1),
    binary main_v156 main_v158 main_v159 (addf),
    unary main_v159 main_v160 (Host.negf),
    unary main_v160 main_v161 (Host.exp),
    nullary main_cst_22 (constant S_ .f32 0x3F800000#32),
    unary main_cst_22 main_v162 (broadcastInDim S50000x1 ![] bcast_S_S50000x1),
    binary main_v162 main_v161 main_v163 (addf),
    nullary main_cst_23 (constant S_ .f32 0x3F800000#32),
    unary main_cst_23 main_v164 (broadcastInDim S50000x1 ![] bcast_S_S50000x1),
    binary main_v164 main_v163 main_v165 (Host.divf) ]

abbrev ops : List (HloOp τ sig (Elt F)) := opsA ++ (opsB1 ++ (opsB2 ++ (opsB3 ++ opsC)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

section AtIdeal

variable (m : (ℓ : Loc nD τ sig) → Buf (Elt Ideal) ℓ)

def RA (c : Dev nD) : Valuation τ sig (Elt Ideal) := after opsA (launchContents m c)
def RB1 (c : Dev nD) : Valuation τ sig (Elt Ideal) := after opsB1 (RA m c)
def RB2 (c : Dev nD) : Valuation τ sig (Elt Ideal) := after opsB2 (RB1 m c)
def RB3 (c : Dev nD) : Valuation τ sig (Elt Ideal) := after opsB3 (RB2 m c)
def RC (c : Dev nD) : Valuation τ sig (Elt Ideal) := after opsC (RB3 m c)

theorem fold_eq (c : Dev nD) : after (ops (F := Ideal)) (launchContents m c) = RC m c := by
  unfold RC RB3 RB2 RB1 RA
  simp only [ops, after_append]

end AtIdeal

end Cert.ReferenceIdeal.RunHand

end
-- ==== Proof.RefCarry.lean ====
import proofs.«407668_j26396869001791_1_alg».proof.Proof.RefFold
import Idealize.ShloMosaic.Lib.StableHlo.Run

noncomputable section

namespace Cert.ReferenceIdeal.RunHand

open Cert.ReferenceIdeal Cert.ReferenceIdeal.Gen Cert.ReferenceIdeal.Stages GinSpec
open Idealize.ShloMosaic Idealize.ShloMosaic.TcCoe Idealize.SL.Sem Idealize.ShloMosaic.StableHlo

variable (m : (ℓ : Loc nD τ sig) → Buf (Elt Ideal) ℓ)

/-! No stretch writes an argument, and none after the first writes the two rows of the edge table: after each stretch the
ten arguments are at their launch contents and the two rows where the first stretch put them. -/

abbrev argsLo : List (Ref sig .tc) := [main_arg0, main_arg1, main_arg2, main_arg3, main_arg4]
abbrev argsHi : List (Ref sig .tc) := [main_arg5, main_arg6, main_arg7, main_arg8, main_arg9]

theorem RA_Lo (c : Dev nD) : ∀ r ∈ argsLo, RA m c (Proc.devRef .tc r) = m ((c.tc : Thread nD τ).loc r) := fun r hr => by
  simp only [argsLo, List.mem_cons, List.mem_nil_iff, or_false] at hr
  rcases hr with rfl | rfl | rfl | rfl | rfl <;> (unfold RA; after_results_simp; (try simp only [StableHlo.TRef.ofBuf, StableHlo.TRef.toBuf, cast_eq]); try rfl)
theorem RA_Hi (c : Dev nD) : ∀ r ∈ argsHi, RA m c (Proc.devRef .tc r) = m ((c.tc : Thread nD τ).loc r) := fun r hr => by
  simp only [argsHi, List.mem_cons, List.mem_nil_iff, or_false] at hr
  rcases hr with rfl | rfl | rfl | rfl | rfl <;> (unfold RA; after_results_simp; (try simp only [StableHlo.TRef.ofBuf, StableHlo.TRef.toBuf, cast_eq]); try rfl)
theorem RA_rows (c : Dev nD) : RA m c (Proc.devRef .tc main_v1) = srcOf (m ((c.tc : Thread nD τ).loc main_arg1))
    ∧ RA m c (Proc.devRef .tc main_v3) = dstOf (m ((c.tc : Thread nD τ).loc main_arg1)) := by
  constructor <;> (unfold RA; after_results_simp; (try simp only [StableHlo.TRef.ofBuf, StableHlo.TRef.toBuf, cast_eq]); try rfl)

theorem RB1_Lo (c : Dev nD) : ∀ r ∈ argsLo, RB1 m c (Proc.devRef .tc r) = m ((c.tc : Thread nD τ).loc r) := fun r hr => by
  have h := RA_Lo m c r hr
  simp only [argsLo, List.mem_cons, List.mem_nil_iff, or_false] at hr
  rcases hr with rfl | rfl | rfl | rfl | rfl <;> (unfold RB1; after_results_simp; (try simp only [StableHlo.TRef.ofBuf, StableHlo.TRef.toBuf, cast_eq]); exact h)
theorem RB1_Hi (c : Dev nD) : ∀ r ∈ argsHi, RB1 m c (Proc.devRef .tc r) = m ((c.tc : Thread nD τ).loc r) := fun r hr => by
  have h := RA_Hi m c r hr
  simp only [argsHi, List.mem_cons, List.mem_nil_iff, or_false] at hr
  rcases hr with rfl | rfl | rfl | rfl | rfl <;> (unfold RB1; after_results_simp; (try simp only [StableHlo.TRef.ofBuf, StableHlo.TRef.toBuf, cast_eq]); exact h)
theorem RB1_rows (c : Dev nD) : RB1 m c (Proc.devRef .tc main_v1) = srcOf (m ((c.tc : Thread nD τ).loc main_arg1))
    ∧ RB1 m c (Proc.devRef .tc main_v3) = dstOf (m ((c.tc : Thread nD τ).loc main_arg1)) := by
  constructor <;> (unfold RB1; after_results_simp; (try simp only [StableHlo.TRef.ofBuf, StableHlo.TRef.toBuf, cast_eq]); first | exact (RA_rows m c).1 | exact (RA_rows m c).2)

theorem RB2_Lo (c : Dev nD) : ∀ r ∈ argsLo, RB2 m c (Proc.devRef .tc r) = m ((c.tc : Thread nD τ).loc r) := fun r hr => by
  have h := RB1_Lo m c r hr
  simp only [argsLo, List.mem_cons, List.mem_nil_iff, or_false] at hr
  rcases hr with rfl | rfl | rfl | rfl | rfl <;> (unfold RB2; after_results_simp; (try simp only [StableHlo.TRef.ofBuf, StableHlo.TRef.toBuf, cast_eq]); exact h)
theorem RB2_Hi (c : Dev nD) : ∀ r ∈ argsHi, RB2 m c (Proc.devRef .tc r) = m ((c.tc : Thread nD τ).loc r) := fun r hr => by
  have h := RB1_Hi m c r hr
  simp only [argsHi, List.mem_cons, List.mem_nil_iff, or_false] at hr
  rcases hr with rfl | rfl | rfl | rfl | rfl <;> (unfold RB2; after_results_simp; (try simp only [StableHlo.TRef.ofBuf, StableHlo.TRef.toBuf, cast_eq]); exact h)
theorem RB2_rows (c : Dev nD) : RB2 m c (Proc.devRef .tc main_v1) = srcOf (m ((c.tc : Thread nD τ).loc main_arg1))
    ∧ RB2 m c (Proc.devRef .tc main_v3) = dstOf (m ((c.tc : Thread nD τ).loc main_arg1)) := by
  constructor <;> (unfold RB2; after_results_simp; (try simp only [StableHlo.TRef.ofBuf, StableHlo.TRef.toBuf, cast_eq]); first | exact (RB1_rows m c).1 | exact (RB1_rows m c).2)

theorem RB3_Lo (c : Dev nD) : ∀ r ∈ argsLo, RB3 m c (Proc.devRef .tc r) = m ((c.tc : Thread nD τ).loc r) := fun r hr => by
  have h := RB2_Lo m c r hr
  simp only [argsLo, List.mem_cons, List.mem_nil_iff, or_false] at hr
  rcases hr with rfl | rfl | rfl | rfl | rfl <;> (unfold RB3; after_results_simp; (try simp only [StableHlo.TRef.ofBuf, StableHlo.TRef.toBuf, cast_eq]); exact h)
theorem RB3_Hi (c : Dev nD) : ∀ r ∈ argsHi, RB3 m c (Proc.devRef .tc r) = m ((c.tc : Thread nD τ).loc r) := fun r hr => by
  have h := RB2_Hi m c r hr
  simp only [argsHi, List.mem_cons, List.mem_nil_iff, or_false] at hr
  rcases hr with rfl | rfl | rfl | rfl | rfl <;> (unfold RB3; after_results_simp; (try simp only [StableHlo.TRef.ofBuf, StableHlo.TRef.toBuf, cast_eq]); exact h)

theorem RC_Lo (c : Dev nD) : ∀ r ∈ argsLo, RC m c (Proc.devRef .tc r) = m ((c.tc : Thread nD τ).loc r) := fun r hr => by
  have h := RB3_Lo m c r hr
  simp only [argsLo, List.mem_cons, List.mem_nil_iff, or_false] at hr
  rcases hr with rfl | rfl | rfl | rfl | rfl <;> (unfold RC; after_results_simp; (try simp only [StableHlo.TRef.ofBuf, StableHlo.TRef.toBuf, cast_eq]); exact h)
theorem RC_Hi (c : Dev nD) : ∀ r ∈ argsHi, RC m c (Proc.devRef .tc r) = m ((c.tc : Thread nD τ).loc r) := fun r hr => by
  have h := RB3_Hi m c r hr
  simp only [argsHi, List.mem_cons, List.mem_nil_iff, or_false] at hr
  rcases hr with rfl | rfl | rfl | rfl | rfl <;> (unfold RC; after_results_simp; (try simp only [StableHlo.TRef.ofBuf, StableHlo.TRef.toBuf, cast_eq]); exact h)

end Cert.ReferenceIdeal.RunHand

end
-- ==== Proof.RefRun.lean ====
import proofs.«407668_j26396869001791_1_alg».proof.Proof.RefCarry
import Idealize.ShloMosaic.Lib.StableHlo.Run

noncomputable section

namespace Cert.ReferenceIdeal.RunHand

open Cert.ReferenceIdeal Cert.ReferenceIdeal.Gen Cert.ReferenceIdeal.Stages GinSpec
open Idealize.ShloMosaic Idealize.ShloMosaic.TcCoe Idealize.SL.Sem Idealize.ShloMosaic.StableHlo

variable (m : (ℓ : Loc nD τ sig) → Buf (Elt Ideal) ℓ)

theorem RA_table (c : Dev nD) : RA m c (Proc.devRef .tc main_v8) = rTable0 m c := by
  unfold RA
  after_results_simp
  try simp only [StableHlo.TRef.ofBuf, StableHlo.TRef.toBuf, cast_eq]
  try rfl

theorem RB1_table (c : Dev nD) : RB1 m c (Proc.devRef .tc main_v57) = rTable1 m c := by
  unfold RB1
  after_results_simp
  try simp only [StableHlo.TRef.ofBuf, StableHlo.TRef.toBuf, cast_eq]
  rw [RA_table m c, (RA_rows m c).1, (RA_rows m c).2, RA_Lo m c main_arg4 (by decide), RA_Hi m c main_arg5 (by decide), RA_Hi m c main_arg6 (by decide), RA_Hi m c main_arg7 (by decide)]
  rfl

theorem RB2_table (c : Dev nD) : RB2 m c (Proc.devRef .tc main_v106) = rTable2 m c := by
  unfold RB2
  after_results_simp
  try simp only [StableHlo.TRef.ofBuf, StableHlo.TRef.toBuf, cast_eq]
  rw [RB1_table m c, (RB1_rows m c).1, (RB1_rows m c).2, RB1_Lo m c main_arg4 (by decide), RB1_Hi m c main_arg5 (by decide), RB1_Hi m c main_arg6 (by decide), RB1_Hi m c main_arg7 (by decide)]
  rfl

theorem RB3_table (c : Dev nD) : RB3 m c (Proc.devRef .tc main_v155) = rTable3 m c := by
  unfold RB3
  after_results_simp
  try simp only [StableHlo.TRef.ofBuf, StableHlo.TRef.toBuf, cast_eq]
  rw [RB2_table m c, (RB2_rows m c).1, (RB2_rows m c).2, RB2_Lo m c main_arg4 (by decide), RB2_Hi m c main_arg5 (by decide), RB2_Hi m c main_arg6 (by decide), RB2_Hi m c main_arg7 (by decide)]
  rfl

theorem RC_table (c : Dev nD) : RC m c (Proc.devRef .tc main_v155) = rTable3 m c := by
  unfold RC
  after_results_simp
  try simp only [StableHlo.TRef.ofBuf, StableHlo.TRef.toBuf, cast_eq]
  exact RB3_table m c

theorem RC_out (c : Dev nD) : RC m c (Proc.devRef .tc main_v165) = rOut m c := by
  unfold RC
  after_results_simp
  try simp only [StableHlo.TRef.ofBuf, StableHlo.TRef.toBuf, cast_eq]
  rw [RB3_table m c, RB3_Hi m c main_arg8 (by decide), RB3_Hi m c main_arg9 (by decide)]
  rfl

theorem run (ρ : Dev nD → PrngReg) :
    θ_run defs (onTc (τ := τ) (main (F := Ideal))) ⟨m, fun _ => 0, ρ⟩ fun r => ∀ c : Dev nD,
      r.2.mem ((c.tc : Thread nD τ).loc main_v165) = rOut m c
      ∧ r.2.mem ((c.tc : Thread nD τ).loc main_v155) = rTable3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v165).trans ((congrFun (fold_eq m c) _).trans (RC_out m c)),
     (h c main_v155).trans ((congrFun (fold_eq m c) _).trans (RC_table m c)),
     (h c main_arg0).trans ((congrFun (fold_eq m c) _).trans (RC_Lo m c main_arg0 (by decide))),
     (h c main_arg1).trans ((congrFun (fold_eq m c) _).trans (RC_Lo m c main_arg1 (by decide))),
     (h c main_arg2).trans ((congrFun (fold_eq m c) _).trans (RC_Lo m c main_arg2 (by decide))),
     (h c main_arg3).trans ((congrFun (fold_eq m c) _).trans (RC_Lo m c main_arg3 (by decide))),
     (h c main_arg4).trans ((congrFun (fold_eq m c) _).trans (RC_Lo m c main_arg4 (by decide))),
     (h c main_arg5).trans ((congrFun (fold_eq m c) _).trans (RC_Hi m c main_arg5 (by decide))),
     (h c main_arg6).trans ((congrFun (fold_eq m c) _).trans (RC_Hi m c main_arg6 (by decide))),
     (h c main_arg7).trans ((congrFun (fold_eq m c) _).trans (RC_Hi m c main_arg7 (by decide))),
     (h c main_arg8).trans ((congrFun (fold_eq m c) _).trans (RC_Hi m c main_arg8 (by decide))),
     (h c main_arg9).trans ((congrFun (fold_eq m c) _).trans (RC_Hi m c main_arg9 (by decide)))⟩)
    (run_seq scopedRefs_eq scopedSems_eq defs main (fun _ => ops) main_eq (fun _ => ops_sub) m ρ)

end Cert.ReferenceIdeal.RunHand

end
-- ==== Proof.RefH0.lean ====
import proofs.«407668_j26396869001791_1_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Stages

open Cert.ReferenceIdeal Cert.ReferenceIdeal.Gen GinSpec
open Idealize.ShloMosaic Idealize.ShloMosaic.ValueIdx

theorem h0_lhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

theorem h0_lhs_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

theorem h0_rhs_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

theorem h0_rhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

theorem h0_dot_apply (x0 : FVec Ideal S50000x128 .f32) (x2 : FVec Ideal S128x128 .f32) (p : Fin 50000) (q : Fin 128) :
    Host.dotGeneral dot_S50000x128_S128x128_S50000x128_1_0_0_1_n_n none x0 x2 (ix2 p q) = ∑ k : Fin 128, x0 (ix2 p k) * x2 (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact h0_lhs_0 _ _
    | ⟨1, _⟩ => exact (h0_lhs_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (h0_rhs_0 _ _).trans hk
    | ⟨1, _⟩ => exact h0_rhs_1 _ _)
  rw [el, er]

theorem h0_rows_apply (v : FVec Ideal S128 .f32) (p : Fin 50000) (q : Fin 128) : rows v (ix2 p q) = v (ix1 q) := by
  unfold rows
  refine (broadcastInDim_apply ![0, 1] bcast_S1x128_S50000x128_0_1 _ (ix2 p q) (ix2 (0 : Fin 1) q) (fun a => ?_)).trans ?_
  · match a with
    | ⟨0, _⟩ => rfl
    | ⟨1, _⟩ => show q.val = if (128 : ℕ) = 1 then 0 else q.val; rw [if_neg (by decide)]
  · refine broadcastInDim_apply ![1] bcast_S128_S1x128_1 v (ix2 (0 : Fin 1) q) (ix1 q) (fun a => ?_)
    match a with
    | ⟨0, _⟩ => show q.val = if (128 : ℕ) = 1 then 0 else q.val; rw [if_neg (by decide)]

theorem h0_zeroTable_apply (p : Fin 50000) (q : Fin 128) : zeroTable (ix2 p q) = 0 := by
  unfold zeroTable
  refine (broadcastInDim_apply ![] bcast_S_S50000x128 _ (ix2 p q) ix0 (fun a => a.elim0)).trans ?_
  exact Ideal.ofBits_zero_f32

theorem refH0_eq (x0 : FVec Ideal S50000x128 .f32) (x2 : FVec Ideal S128x128 .f32) (x3 : FVec Ideal S128 .f32) :
    refH0 x0 x2 x3 = linRelu x0 x2 (row x3) := by
  funext i
  obtain ⟨p, q, rfl⟩ : ∃ (p : Fin 50000) (q : Fin 128), i = ix2 p q := ⟨i 0, i 1, eq_ix2 i⟩
  unfold refH0
  rw [maximumf_apply, addf_apply, h0_dot_apply, h0_rows_apply, h0_zeroTable_apply]
  show _ = max (affine x0 x2 (row x3) (ix2 p q)) 0
  rw [affine_apply]
  rfl

end Cert.ReferenceIdeal.Stages

end
-- ==== Proof.RefLayer.lean ====
import proofs.«407668_j26396869001791_1_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Stages

open Cert.ReferenceIdeal Cert.ReferenceIdeal.Gen GinSpec
open Idealize.ShloMosaic Idealize.ShloMosaic.ValueIdx

theorem dot_lhs_0 (i : S50000x128.Idx) (c : dot_S50000x128_S128x128_S50000x128_1_0_0_1_n_n.contr.Idx) :
    (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

theorem dot_lhs_1 (i : S50000x128.Idx) (c : dot_S50000x128_S128x128_S50000x128_1_0_0_1_n_n.contr.Idx) :
    (dot_S50000x128_S128x128_S50000x128_1_0_0_1_n_n.lhsIdx i c 1).val = (c ⟨0, by decide⟩).val :=
  dot_S50000x128_S128x128_S50000x128_1_0_0_1_n_n.lhsIdx_val_of_single rfl i c

theorem dot_rhs_0 (i : S50000x128.Idx) (c : dot_S50000x128_S128x128_S50000x128_1_0_0_1_n_n.contr.Idx) :
    (dot_S50000x128_S128x128_S50000x128_1_0_0_1_n_n.rhsIdx i c 0).val = (c ⟨0, by decide⟩).val :=
  dot_S50000x128_S128x128_S50000x128_1_0_0_1_n_n.rhsIdx_val_of_single rfl i c

theorem dot_rhs_1 (i : S50000x128.Idx) (c : dot_S50000x128_S128x128_S50000x128_1_0_0_1_n_n.contr.Idx) :
    (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

theorem dot_apply (l : FVec Ideal S50000x128 .f32) (r : FVec Ideal S128x128 .f32) (p : Fin 50000) (q : Fin 128) :
    Host.dotGeneral dot_S50000x128_S128x128_S50000x128_1_0_0_1_n_n none l r (ix2 p q)
      = ∑ k : Fin 128, l (ix2 p k) * r (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q)
      ((ValueIdx.contrEquiv1 dot_S50000x128_S128x128_S50000x128_1_0_0_1_n_n 128 rfl rfl).symm k) = ix2 p k :=
    funext fun a => Fin.ext (by
      match a with
      | ⟨0, _⟩ => exact dot_lhs_0 _ _
      | ⟨1, _⟩ => exact (dot_lhs_1 _ _).trans hk)
  have er : dot_S50000x128_S128x128_S50000x128_1_0_0_1_n_n.rhsIdx (ix2 p q)
      ((ValueIdx.contrEquiv1 dot_S50000x128_S128x128_S50000x128_1_0_0_1_n_n 128 rfl rfl).symm k) = ix2 k q :=
    funext fun a => Fin.ext (by
      match a with
      | ⟨0, _⟩ => exact (dot_rhs_0 _ _).trans hk
      | ⟨1, _⟩ => exact dot_rhs_1 _ _)
  rw [el, er]

theorem rows_apply (v : FVec Ideal S128 .f32) (p : Fin 50000) (q : Fin 128) : rows v (ix2 p q) = v (ix1 q) := by
  unfold rows
  refine (broadcastInDim_apply ![0, 1] bcast_S1x128_S50000x128_0_1 _ (ix2 p q) (ix2 0 q) (fun a => ?_)).trans ?_
  · match a with
    | ⟨0, _⟩ => show (0 : Nat) = if (1 : Nat) = 1 then 0 else p.val; rw [if_pos rfl]
    | ⟨1, _⟩ => show q.val = if (128 : Nat) = 1 then 0 else q.val; rw [if_neg (by decide)]
  · exact broadcastInDim_apply ![1] bcast_S128_S1x128_1 v (ix2 0 q) (ix1 q) (fun a => by
      match a with
      | ⟨0, _⟩ => show q.val = if (128 : Nat) = 1 then 0 else q.val; rw [if_neg (by decide)])

theorem zeroTable_apply (i : S50000x128.Idx) : zeroTable i = 0 := by
  unfold zeroTable
  refine (broadcastInDim_apply (s := S_) ![] bcast_S_S50000x128 (constant (F := Ideal) S_ .f32 0x00000000#32) i ix0
    (fun a => a.elim0)).trans ?_
  exact Ideal.ofBits_zero_f32

theorem nodesVec_apply (j : S128.Idx) : nodesVec j = nodesWord := by
  unfold nodesVec
  exact broadcastInDim_apply (s := S_) ![] bcast_S_S128 (constant (F := Ideal) S_ .f32 0x47435000#32) j ix0 (fun a => a.elim0)
theorem epsVec_apply (j : S128.Idx) : epsVec j = epsWord := by
  unfold epsVec
  exact broadcastInDim_apply (s := S_) ![] bcast_S_S128 (constant (F := Ideal) S_ .f32 0x3727C5AC#32) j ix0 (fun a => a.elim0)

theorem hostDivf_apply {s : Shape} (a c : FVec Ideal s .f32) (i : s.Idx) : Host.divf a c i = Ideal.div (a i) (c i) := rfl
theorem hostRsqrt_apply {s : Shape} (a : FVec Ideal s .f32) (i : s.Idx) : Host.rsqrt a i = Ideal.rsqrt (a i) := rfl

theorem colSumHost_apply (z : FVec Ideal S50000x128 .f32) (q : Fin 128) :
    colSumHost z (ix1 q) = ∑ r : Fin 50000, z (ix2 r q) := by
  unfold colSumHost
  simp only [Host.reduceAdd, Ideal.hostReduceAdd_def]
  rw [Ideal.hostReduceAdd_single reducesTo_S50000x128_S128_d0 (by decide), constant_apply, Ideal.ofBits_zero_f32, zero_add]
  refine Finset.sum_congr rfl fun k _ => ?_
  exact congrArg z (funext fun a => Fin.ext (by match a with | ⟨0, _⟩ => rfl | ⟨1, _⟩ => rfl))

theorem refZ_apply (src dst : IVec S800000 32) (h : FVec Ideal S50000x128 .f32) (w : FVec Ideal S128x128 .f32) (b : FVec Ideal S128 .f32)
    (p : Fin 50000) (q : Fin 128) :
    addf (Host.dotGeneral dot_S50000x128_S128x128_S50000x128_1_0_0_1_n_n none (addf h (refAgg src dst h)) w) (rows b) (ix2 p q)
      = gnnZ h (refAgg src dst h) w (row b) (ix2 p q) := by
  rewrite [addf_apply, dot_apply, rows_apply]
  rfl

theorem refZ_eq (src dst : IVec S800000 32) (h : FVec Ideal S50000x128 .f32) (w : FVec Ideal S128x128 .f32) (b : FVec Ideal S128 .f32) :
    addf (Host.dotGeneral dot_S50000x128_S128x128_S50000x128_1_0_0_1_n_n none (addf h (refAgg src dst h)) w) (rows b)
      = gnnZ h (refAgg src dst h) w (row b) := by
  funext i
  obtain ⟨p, q, rfl⟩ : ∃ (p : Fin 50000) (q : Fin 128), i = ix2 p q := ⟨i 0, i 1, eq_ix2 i⟩
  exact refZ_apply src dst h w b p q

theorem refLayer_eq (src dst : IVec S800000 32) (h : FVec Ideal S50000x128 .f32) (w : FVec Ideal S128x128 .f32)
    (b g be : FVec Ideal S128 .f32) :
    refLayer src dst h w b g be = layerDeviations (refAgg src dst) h w (row b) (row g) (row be) := by
  funext i
  obtain ⟨p, q, rfl⟩ : ∃ (p : Fin 50000) (q : Fin 128), i = ix2 p q := ⟨i 0, i 1, eq_ix2 i⟩
  unfold refLayer layerDeviations
  rw [refZ_eq, bn_apply]

  generalize gnnZ h (refAgg src dst h) w (row b) = z
  simp only [maximumf_apply, addf_apply, mulf_apply, subf_apply, rows_apply, zeroTable_apply, hostDivf_apply, hostRsqrt_apply,
    colSumHost_apply, nodesVec_apply, epsVec_apply]

  rfl

end Cert.ReferenceIdeal.Stages

end
-- ==== Proof.RefHead.lean ====
import proofs.«407668_j26396869001791_1_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Stages

open Cert.ReferenceIdeal Cert.ReferenceIdeal.Gen GinSpec
open Idealize.ShloMosaic Idealize.ShloMosaic.ValueIdx

theorem hd_one : Ideal.ofBits .f32 0x3F800000#32 = 1 := by
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  show Ideal.ieee 8 23 (0x3F800000#32 : BitVec 32) = 1
  unfold Ideal.ieee
  simp only [hs, he, hf]
  norm_num

theorem hd_lhs_row (i : S50000x1.Idx) (q : dot_S50000x128_S128x1_S50000x1_1_0_0_1_n_n.contr.Idx) :
    (dot_S50000x128_S128x1_S50000x1_1_0_0_1_n_n.lhsIdx i q 0).val = (i 0).val := by
  unfold DotDims.lhsIdx
  rw [dif_neg (show ¬(0 : Fin S50000x128.rank) ∈ dot_S50000x128_S128x1_S50000x1_1_0_0_1_n_n.lhsBatch by decide), dif_pos (show (0 : Fin S50000x128.rank) ∈ dot_S50000x128_S128x1_S50000x1_1_0_0_1_n_n.lhsNonContracting by decide)]
  rfl

theorem hd_lhs_feat (i : S50000x1.Idx) (q : dot_S50000x128_S128x1_S50000x1_1_0_0_1_n_n.contr.Idx) :
    (dot_S50000x128_S128x1_S50000x1_1_0_0_1_n_n.lhsIdx i q 1).val = (q ⟨0, by decide⟩).val :=
  dot_S50000x128_S128x1_S50000x1_1_0_0_1_n_n.lhsIdx_val_of_single rfl i q

theorem hd_rhs_feat (i : S50000x1.Idx) (q : dot_S50000x128_S128x1_S50000x1_1_0_0_1_n_n.contr.Idx) :
    (dot_S50000x128_S128x1_S50000x1_1_0_0_1_n_n.rhsIdx i q 0).val = (q ⟨0, by decide⟩).val :=
  dot_S50000x128_S128x1_S50000x1_1_0_0_1_n_n.rhsIdx_val_of_single rfl i q

theorem hd_rhs_col (i : S50000x1.Idx) (q : dot_S50000x128_S128x1_S50000x1_1_0_0_1_n_n.contr.Idx) :
    (dot_S50000x128_S128x1_S50000x1_1_0_0_1_n_n.rhsIdx i q 1).val = (i 1).val := by
  unfold DotDims.rhsIdx
  rw [dif_neg (show ¬(1 : Fin S128x1.rank) ∈ dot_S50000x128_S128x1_S50000x1_1_0_0_1_n_n.rhsBatch by decide), dif_pos (show (1 : Fin S128x1.rank) ∈ dot_S50000x128_S128x1_S50000x1_1_0_0_1_n_n.rhsNonContracting by decide)]
  rfl

theorem hd_dot_apply (h : FVec Ideal S50000x128 .f32) (w : FVec Ideal S128x1 .f32) (p : Fin 50000) :
    Host.dotGeneral dot_S50000x128_S128x1_S50000x1_1_0_0_1_n_n none h w (ix2 p 0) = ∑ k : Fin 128, h (ix2 p k) * w (ix2 k 0) := by
  simp only [Host.dotGeneral]
  rw [Ideal.dotGeneral_apply, ← Equiv.sum_comp (contrEquiv1 dot_S50000x128_S128x1_S50000x1_1_0_0_1_n_n 128 rfl rfl).symm]
  refine Finset.sum_congr rfl fun k _ => ?_
  have hk := contrEquiv1_symm_val dot_S50000x128_S128x1_S50000x1_1_0_0_1_n_n 128 rfl rfl k
  have el : dot_S50000x128_S128x1_S50000x1_1_0_0_1_n_n.lhsIdx (ix2 p 0) ((contrEquiv1 dot_S50000x128_S128x1_S50000x1_1_0_0_1_n_n 128 rfl rfl).symm k) = ix2 p k := funext fun a => Fin.ext (by
    match a with
    | ⟨0, _⟩ => exact hd_lhs_row _ _
    | ⟨1, _⟩ => exact (hd_lhs_feat _ _).trans hk)
  have er : dot_S50000x128_S128x1_S50000x1_1_0_0_1_n_n.rhsIdx (ix2 p 0) ((contrEquiv1 dot_S50000x128_S128x1_S50000x1_1_0_0_1_n_n 128 rfl rfl).symm k) = ix2 k 0 := funext fun a => Fin.ext (by
    match a with
    | ⟨0, _⟩ => exact (hd_rhs_feat _ _).trans hk
    | ⟨1, _⟩ => exact hd_rhs_col _ _)
  rw [el, er]

theorem hd_ones_apply (i : S50000x1.Idx) :
    broadcastInDim S50000x1 ![] bcast_S_S50000x1 (constant (F := Ideal) S_ .f32 0x3F800000#32) i = 1 :=
  (broadcastInDim_apply ![] bcast_S_S50000x1 (constant (F := Ideal) S_ .f32 0x3F800000#32) i ix0 fun a => a.elim0).trans
    ((constant_apply (s := S_) (φ := .f32) 0x3F800000#32 ix0).trans hd_one)

theorem hd_bias_apply (x9 : FVec Ideal S1 .f32) (p : Fin 50000) :
    broadcastInDim S50000x1 ![0, 1] bcast_S1x1_S50000x1_0_1 (broadcastInDim S1x1 ![1] bcast_S1_S1x1_1 x9) (ix2 p 0)
      = x9 (ix1 0) := by
  refine (broadcastInDim_apply ![0, 1] bcast_S1x1_S50000x1_0_1 _ (ix2 p 0) (ix2 0 0) fun a => ?_).trans ?_
  · match a with
    | ⟨0, _⟩ => rfl
    | ⟨1, _⟩ => rfl
  · exact broadcastInDim_apply ![1] bcast_S1_S1x1_1 x9 (ix2 0 0) (ix1 0) fun a => by
      match a with
      | ⟨0, _⟩ => rfl

theorem refHead_eq (h : FVec Ideal S50000x128 .f32) (x8 : FVec Ideal S128x1 .f32) (x9 : FVec Ideal S1 .f32) :
    refHead h x8 x9 = head h x8 (cell x9) := by
  funext i
  obtain ⟨p, q, rfl⟩ : ∃ (p : Fin 50000) (q : Fin 1), i = ix2 p q := ⟨i 0, i 1, eq_ix2 i⟩
  obtain rfl : q = 0 := Subsingleton.elim _ _
  show FloatOps.hostDivf
      (broadcastInDim S50000x1 ![] bcast_S_S50000x1 (constant (F := Ideal) S_ .f32 0x3F800000#32) (ix2 p 0))
      (FloatOps.addf
        (broadcastInDim S50000x1 ![] bcast_S_S50000x1 (constant (F := Ideal) S_ .f32 0x3F800000#32) (ix2 p 0))
        (FloatOps.hostUnary .exp (FloatOps.hostNegf
          (Host.dotGeneral dot_S50000x128_S128x1_S50000x1_1_0_0_1_n_n none h x8 (ix2 p 0)
            + broadcastInDim S50000x1 ![0, 1] bcast_S1x1_S50000x1_0_1 (broadcastInDim S1x1 ![1] bcast_S1_S1x1_1 x9) (ix2 p 0)))))
    = Ideal.logistic ((∑ k : Fin 128, h (ix2 p k) * x8 (ix2 k 0)) + cell x9 (ix2 0 0))
  rw [hd_ones_apply, hd_dot_apply, hd_bias_apply]
  rfl

end Cert.ReferenceIdeal.Stages

end
-- ==== Proof.SpecLaws.lean ====
import proofs.«407668_j26396869001791_1_alg».proof.Proof.Spec

noncomputable section

open scoped BigOperators

namespace GinSpec

open Idealize.ShloMosaic Idealize.ShloMosaic.ValueIdx

theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem coe_max (x y : ℝ) : ((max x y : ℝ) : EReal) = max (x : EReal) (y : EReal) :=
  EReal.coe_strictMono.monotone.map_max

theorem real_var_identity {ι : Type} [Fintype ι] (a : ι → ℝ) (N : ℝ) (hN : N ≠ 0) (hcard : (Fintype.card ι : ℝ) = N) :
    (∑ k, a k * a k) * (1 / N) - (∑ k, a k) * (1 / N) * ((∑ k, a k) * (1 / N))
      = (∑ k, (a k - (∑ l, a l) * (1 / N)) * (a k - (∑ l, a l) * (1 / N))) * (1 / N) := by
  have expand : ∀ k, (a k - (∑ l, a l) * (1 / N)) * (a k - (∑ l, a l) * (1 / N))
      = a k * a k - 2 * ((∑ l, a l) * (1 / N)) * a k + (∑ l, a l) * (1 / N) * ((∑ l, a l) * (1 / N)) :=
    fun k => by ring
  simp only [expand]
  rw [Finset.sum_add_distrib, Finset.sum_sub_distrib, ← Finset.mul_sum, Finset.sum_const, Finset.card_univ,
    nsmul_eq_mul, hcard]
  field_simp
  ring

theorem nodesWord_eq : nodesWord = ((50000 : ℝ) : EReal) := by
  show Ideal.ofBits .f32 0x47435000#32 = ((50000 : ℝ) : EReal)
  simp [Ideal.ofBits, Ideal.ieee, -EReal.coe_mul]; norm_num

theorem epsWord_pos : ∃ e : ℝ, 0 < e ∧ epsWord = (e : EReal) := by
  refine ⟨(10995116 : ℝ) * (2 : ℝ) ^ (-40 : ℤ), by positivity, ?_⟩
  show Ideal.ofBits .f32 0x3727C5AC#32 = _
  simp [Ideal.ofBits, Ideal.ieee, -EReal.coe_mul]

theorem isReal_relu {s : Shape} {a : Arr s} (ha : IsReal a) : IsReal (relu a) := by
  intro i
  obtain ⟨r, hr⟩ := ha i
  refine ⟨max r 0, ?_⟩
  show max (a i) 0 = _
  rw [hr, coe_max, EReal.coe_zero]

theorem isReal_affine {x : Arr ND} {w : Arr DD} {b : Arr OD} (hx : IsReal x) (hw : IsReal w) (hb : IsReal b) :
    IsReal (affine x w b) := by
  choose xr hxr using hx
  choose wr hwr using hw
  choose br hbr using hb
  intro i
  refine ⟨(∑ k : Fin 128, xr (ix2 (i 0) k) * wr (ix2 k (i 1))) + br (ix2 0 (i 1)), ?_⟩
  show (∑ k : Fin 128, x (ix2 (i 0) k) * w (ix2 k (i 1))) + b (ix2 0 (i 1)) = _
  simp only [hxr, hwr, hbr, ← EReal.coe_mul]
  rw [coe_sum, ← EReal.coe_add]

theorem isReal_linRelu {x : Arr ND} {w : Arr DD} {b : Arr OD} (hx : IsReal x) (hw : IsReal w) (hb : IsReal b) :
    IsReal (linRelu x w b) := isReal_relu (isReal_affine hx hw hb)

theorem isReal_gnnZ {h agg : Arr ND} {w : Arr DD} {b : Arr OD} (hh : IsReal h) (ha : IsReal agg) (hw : IsReal w) (hb : IsReal b) :
    IsReal (gnnZ h agg w b) := by
  refine isReal_affine (x := fun i => h i + agg i) (fun i => ?_) hw hb
  obtain ⟨r, hr⟩ := hh i
  obtain ⟨s, hs⟩ := ha i
  exact ⟨r + s, by simp only [hr, hs, EReal.coe_add]⟩

theorem var_eq {z : Arr ND} (hz : IsReal z) :
    varOfMoments (colSum (sq z)) (overN (colSum z)) = overN (colSum (devSq z (overN (colSum z)))) := by
  choose r hr using hz
  obtain rfl : z = fun i => ((r i : ℝ) : EReal) := funext hr
  funext j
  have hN : (50000 : ℝ) ≠ 0 := by norm_num

  show Ideal.div (∑ k : Fin 50000, ((r (ix2 k (j 1)) : ℝ) : EReal) * ((r (ix2 k (j 1)) : ℝ) : EReal)) nodesWord
        - Ideal.div (∑ k : Fin 50000, ((r (ix2 k (j 1)) : ℝ) : EReal)) nodesWord
            * Ideal.div (∑ k : Fin 50000, ((r (ix2 k (j 1)) : ℝ) : EReal)) nodesWord
      = Ideal.div (∑ k : Fin 50000,
            (((r (ix2 k (j 1)) : ℝ) : EReal) - Ideal.div (∑ l : Fin 50000, ((r (ix2 l (j 1)) : ℝ) : EReal)) nodesWord)
              * (((r (ix2 k (j 1)) : ℝ) : EReal) - Ideal.div (∑ l : Fin 50000, ((r (ix2 l (j 1)) : ℝ) : EReal)) nodesWord))
          nodesWord
  rw [nodesWord_eq]

  simp only [Ideal.div_coe hN, ← EReal.coe_mul, coe_sum, ← EReal.coe_sub]
  rw [real_var_identity _ 50000 hN (by simp)]

theorem layer_eq (A : Arr ND → Arr ND) (h : Arr ND) (w : Arr DD) (b g be : Arr OD) (hz : IsReal (gnnZ h (A h) w b)) :
    layerMoments A h w b g be = layerDeviations A h w b g be := by
  unfold layerMoments layerDeviations
  rw [var_eq hz]

theorem isReal_colSum {z : Arr ND} (hz : IsReal z) : IsReal (colSum z) := by
  choose r hr using hz
  intro j
  refine ⟨∑ k : Fin 50000, r (ix2 k (j 1)), ?_⟩
  show ∑ k : Fin 50000, z (ix2 k (j 1)) = _
  simp only [hr]
  rw [coe_sum]

theorem isReal_overN {s : Arr OD} (hs : IsReal s) : IsReal (overN s) := by
  intro j
  obtain ⟨r, hr⟩ := hs j
  refine ⟨r * (1 / 50000), ?_⟩
  show Ideal.div (s j) nodesWord = _
  rw [nodesWord_eq, Ideal.div_coe (by norm_num), hr, ← EReal.coe_mul]

theorem devVar_nonneg {z : Arr ND} {mu : Arr OD} (hz : IsReal z) (hmu : IsReal mu) :
    ∀ j, ∃ v : ℝ, 0 ≤ v ∧ overN (colSum (devSq z mu)) j = (v : EReal) := by
  choose r hr using hz
  choose m hm using hmu
  intro j
  refine ⟨(∑ k : Fin 50000, (r (ix2 k (j 1)) - m (ix2 0 (j 1))) * (r (ix2 k (j 1)) - m (ix2 0 (j 1)))) * (1 / 50000),
    mul_nonneg (Finset.sum_nonneg fun k _ => mul_self_nonneg _) (by norm_num), ?_⟩
  show Ideal.div (∑ k : Fin 50000, (z (ix2 k (j 1)) - mu (ix2 0 (j 1))) * (z (ix2 k (j 1)) - mu (ix2 0 (j 1))))
      nodesWord = _
  rw [nodesWord_eq, Ideal.div_coe (by norm_num)]
  simp only [hr, hm, ← EReal.coe_sub, ← EReal.coe_mul, coe_sum]

theorem isReal_bn {z : Arr ND} {mu var g be : Arr OD} (hz : IsReal z) (hmu : IsReal mu)
    (hvar : ∀ j, ∃ v : ℝ, 0 ≤ v ∧ var j = (v : EReal)) (hg : IsReal g) (hbe : IsReal be) :
    IsReal (bn z mu var g be) := by
  intro i
  obtain ⟨zr, hzr⟩ := hz i
  obtain ⟨m, hm⟩ := hmu (ix2 0 (i 1))
  obtain ⟨v, hv0, hv⟩ := hvar (ix2 0 (i 1))
  obtain ⟨gr, hgr⟩ := hg (ix2 0 (i 1))
  obtain ⟨br, hbr⟩ := hbe (ix2 0 (i 1))
  obtain ⟨e, he, hee⟩ := epsWord_pos
  have hpos : 0 < v + e := add_pos_of_nonneg_of_pos hv0 he
  show ∃ t : ℝ, max ((z i - mu (ix2 0 (i 1))) * Ideal.rsqrt (var (ix2 0 (i 1)) + epsWord) * g (ix2 0 (i 1))
      + be (ix2 0 (i 1))) 0 = (t : EReal)
  rw [hzr, hm, hv, hgr, hbr, hee, ← EReal.coe_add, Ideal.rsqrt_coe, if_neg (not_lt.mpr hpos.le), if_neg hpos.ne',
    ← EReal.coe_sub, ← EReal.coe_mul, ← EReal.coe_mul, ← EReal.coe_add, ← EReal.coe_zero, ← coe_max]
  exact ⟨_, rfl⟩

theorem isReal_layerDeviations (A : Arr ND → Arr ND) (h : Arr ND) (w : Arr DD) (b g be : Arr OD)
    (hz : IsReal (gnnZ h (A h) w b)) (hg : IsReal g) (hbe : IsReal be) : IsReal (layerDeviations A h w b g be) := by
  unfold layerDeviations
  exact isReal_bn hz (isReal_overN (isReal_colSum hz)) (devVar_nonneg hz (isReal_overN (isReal_colSum hz))) hg hbe

end GinSpec

end
-- ==== Proof.PreFacts.lean ====
import proofs.«407668_j26396869001791_1_alg».proof.Pre_finite_inputs
import proofs.«407668_j26396869001791_1_alg».proof.Proof.Gen.Pre_finite_inputs
import proofs.«407668_j26396869001791_1_alg».proof.Proof.Agg
import Idealize.ShloMosaic.Lib.ReduceAll
import Idealize.ShloMosaic.Lib.StableHlo.Predicate
import Idealize.ShloMosaic.Lib.ValueIdx

noncomputable section

namespace Cert.PreFacts

open GinSpec Idealize.ShloMosaic Idealize.ShloMosaic.ValueIdx

instance scalarIdxSubsingleton : Subsingleton (⟨0, ![]⟩ : Shape).Idx := ⟨fun a b => funext fun d => d.elim0⟩

theorem real_of_abs_lt_top (x : EReal) (h : max x (-x) < ⊤) : ∃ r : ℝ, x = (r : EReal) := by
  induction x using EReal.rec with
  | bot => simp at h
  | coe r => exact ⟨r, rfl⟩
  | top => simp at h

theorem abs_lt_top_of_cmp (x : EReal)
    (h : Ideal.cmp .olt (max x (-x)) (Ideal.ofBits .f32 0x7F800000#32) = 1#1) : max x (-x) < ⊤ := by
  have e : Ideal.ofBits .f32 0x7F800000#32 = (⊤ : EReal) := by simp [Ideal.ofBits, Ideal.ieee]
  rw [e] at h
  have h' : BitVec.ofBool (decide (max x (-x) < (⊤ : EReal))) = 1#1 := h
  exact of_decide_eq_true ((StableHlo.Predicate.ofBool_eq_one_iff _).1 h')

theorem isReal_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) :
    IsReal x := by
  intro i
  have hi := Host.reduce_andi_all _ _ hr hu ix0 e i
  exact real_of_abs_lt_top (x i) (abs_lt_top_of_cmp (x i) hi)

theorem of_pre
    (x0 : FVec Ideal Cert.Pre_finite_inputs.S50000x128 .f32) (x1 : IVec Cert.Pre_finite_inputs.S2x800000 32)
    (x2 : FVec Ideal Cert.Pre_finite_inputs.S128x128 .f32) (x3 : FVec Ideal Cert.Pre_finite_inputs.S128 .f32)
    (x4 : FVec Ideal Cert.Pre_finite_inputs.S3x128x128 .f32) (x5 x6 x7 : FVec Ideal Cert.Pre_finite_inputs.S3x128 .f32)
    (x8 : FVec Ideal Cert.Pre_finite_inputs.S128x1 .f32) (x9 : FVec Ideal Cert.Pre_finite_inputs.S1 .f32)
    (h : Cert.Pre_finite_inputs.fn (F := Ideal) x0 x1 x2 x3 x4 x5 x6 x7 x8 x9 = fun _ => 1#1) :
    IsReal x0 ∧ IsReal x2 ∧ IsReal x3 ∧ IsReal x4 ∧ IsReal x5 ∧ IsReal x6 ∧ IsReal x7 ∧ IsReal x8 ∧ IsReal x9
      ∧ Cert.KernelIdeal.Agg.SrcInRange x1 := by
  have h0 := congrFun h ix0
  dsimp only [Cert.Pre_finite_inputs.fn, Cert.Pre_finite_inputs.fn_part1, Cert.Pre_finite_inputs.fn_part2,
    Cert.Pre_finite_inputs.fn_part3] at h0
  obtain ⟨h43, h53⟩ := IntOp.andi_eq_one.1 h0
  obtain ⟨h38, h42⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨isReal_of_all x0 _ _ _ h3, isReal_of_all x2 _ _ _ h7, isReal_of_all x3 _ _ _ h12, isReal_of_all x4 _ _ _ h17,
    isReal_of_all x5 _ _ _ h22, isReal_of_all x6 _ _ _ h27, isReal_of_all x7 _ _ _ h32, isReal_of_all x8 _ _ _ h37,
    isReal_of_all x9 _ _ _ h42, ?_⟩
  intro i
  have hi := Host.reduce_andi_all _ _ _ _ ix0 h53 i
  obtain ⟨hge, hlt⟩ := IntOp.andi_eq_one.1 hi
  exact ⟨hge, hlt⟩

end Cert.PreFacts

end
-- ==== Proof.BridgeArgs.lean ====
import proofs.«407668_j26396869001791_1_alg».proof.Proof.KNames
import proofs.«407668_j26396869001791_1_alg».proof.Proof.RefStages
import Idealize.ShloMosaic.Lib.ValueIdx
import Idealize.ShloMosaic.Lib.ValueLayout
import Idealize.ShloMosaic.Lib.Pipeline.Value

noncomputable section

namespace Cert.Bridge

open GinSpec Idealize.ShloMosaic Idealize.ShloMosaic.ValueIdx

theorem row_of_shapeCast (v : FVec Ideal Cert.KernelIdeal.S128 .f32) :
    (shapeCast Cert.KernelIdeal.S1x128 v Cert.KernelIdeal.Gen.shapeCasts_S128_S1x128 : Arr OD) = Cert.ReferenceIdeal.Stages.row v := by

  funext j
  obtain ⟨p, q, rfl⟩ : ∃ (p : Fin 1) (q : Fin 128), j = ix2 p q := ⟨j 0, j 1, eq_ix2 j⟩
  exact shapeCast_a_1a_apply v _ p q

theorem cell_of_shapeCast (v : FVec Ideal Cert.KernelIdeal.S1 .f32) :
    (shapeCast Cert.KernelIdeal.S1x1 v Cert.KernelIdeal.Gen.shapeCasts_S1_S1x1 : Arr OO) = Cert.ReferenceIdeal.Stages.cell v := by
  funext j
  obtain ⟨p, q, rfl⟩ : ∃ (p : Fin 1) (q : Fin 1), j = ix2 p q := ⟨j 0, j 1, eq_ix2 j⟩

  obtain rfl : q = 0 := Fin.eq_zero q
  exact shapeCast_a_1a_apply v _ p 0

theorem rowAt_eq (x : FVec Ideal Cert.KernelIdeal.S3x128 .f32) (off : Fin 2 → Nat) (hsK : Cert.KernelIdeal.S3x128.Slices off Cert.KernelIdeal.S1x128)
    (hsR : Cert.ReferenceIdeal.S3x128.Slices off Cert.ReferenceIdeal.S1x128) :
    Cert.KernelIdeal.Chain.rowAt x off hsK = Cert.ReferenceIdeal.Stages.row (Cert.ReferenceIdeal.Stages.vectorAt x off hsR) := by

  unfold Cert.KernelIdeal.Chain.rowAt
  exact row_of_shapeCast _

theorem weightsAt_eq (x : FVec Ideal Cert.KernelIdeal.S3x128x128 .f32) (off : Fin 3 → Nat) (hsK : Cert.KernelIdeal.S3x128x128.Slices off Cert.KernelIdeal.S1x128x128)
    (hsR : Cert.ReferenceIdeal.S3x128x128.Slices off Cert.ReferenceIdeal.S1x128x128) :
    Cert.KernelIdeal.Chain.weightsAt x off hsK = Cert.ReferenceIdeal.Stages.weightsAt x off hsR := by
  rfl

theorem scatterDims_eq :
    Cert.KernelIdeal.scatter_S50000x128_S800000x1_S800000x128_1_0_0_1
      = Cert.ReferenceIdeal.scatter_S50000x128_S800000x1_S800000x128_1_0_0_1 := rfl
theorem gatherDims_eq :
    Cert.KernelIdeal.gather_S50000x128_S800000x1_S800000x128_1_0_n_n_0_1_1128
      = Cert.ReferenceIdeal.gather_S50000x128_S800000x1_S800000x128_1_0_n_n_0_1_1128 := rfl

theorem srcOf_eq (e : IVec Cert.KernelIdeal.S2x800000 32) :
    Cert.KernelIdeal.Agg.srcOf e = Cert.ReferenceIdeal.Stages.srcOf e := rfl
theorem dstOf_eq (e : IVec Cert.KernelIdeal.S2x800000 32) :
    Cert.KernelIdeal.Agg.dstOf e = Cert.ReferenceIdeal.Stages.dstOf e := rfl
theorem wrapIdx_eq (src : IVec Cert.KernelIdeal.S800000 32) :
    Cert.KernelIdeal.Agg.wrapIdx src = Cert.ReferenceIdeal.Stages.wrapIdx src := rfl
theorem zeroTable_eq :
    (broadcastInDim Cert.KernelIdeal.S50000x128 ![] Cert.KernelIdeal.Gen.bcast_S_S50000x128
        (constant (F := Ideal) Cert.KernelIdeal.S_ .f32 0x00000000#32) : FVec Ideal Cert.KernelIdeal.S50000x128 .f32)
      = Cert.ReferenceIdeal.Stages.zeroTable := rfl

theorem aggPlain_eq (e : IVec Cert.KernelIdeal.S2x800000 32) :
    Cert.KernelIdeal.Agg.aggPlain e = Cert.ReferenceIdeal.Stages.refAgg (Cert.ReferenceIdeal.Stages.srcOf e) (Cert.ReferenceIdeal.Stages.dstOf e) := by

  funext h
  unfold Cert.KernelIdeal.Agg.aggPlain Cert.KernelIdeal.Agg.scatterSum Cert.KernelIdeal.Agg.gathered
    Cert.ReferenceIdeal.Stages.refAgg
  rw [scatterDims_eq, gatherDims_eq, srcOf_eq, dstOf_eq, wrapIdx_eq, zeroTable_eq]

end Cert.Bridge

end
-- ==== Proof.Bridge.lean ====
import proofs.«407668_j26396869001791_1_alg».proof.Defs
import proofs.«407668_j26396869001791_1_alg».proof.Proof.KNames
import proofs.«407668_j26396869001791_1_alg».proof.Proof.RefStages
import proofs.«407668_j26396869001791_1_alg».proof.Proof.RefH0
import proofs.«407668_j26396869001791_1_alg».proof.Proof.RefLayer
import proofs.«407668_j26396869001791_1_alg».proof.Proof.RefHead
import proofs.«407668_j26396869001791_1_alg».proof.Proof.SpecLaws
import proofs.«407668_j26396869001791_1_alg».proof.Proof.Agg
import proofs.«407668_j26396869001791_1_alg».proof.Proof.PreFacts
import proofs.«407668_j26396869001791_1_alg».proof.Proof.BridgeArgs

noncomputable section

namespace Cert.Bridge

open GinSpec Idealize.ShloMosaic Idealize.ShloMosaic.ValueIdx Idealize.ShloMosaic.TcCoe Idealize.SL.Sem

theorem isReal_weightsAt {x : FVec Ideal Cert.KernelIdeal.S3x128x128 .f32} (hx : IsReal x) (off : Fin 3 → Nat)
    (hs : Cert.KernelIdeal.S3x128x128.Slices off Cert.KernelIdeal.S1x128x128) : IsReal (Cert.KernelIdeal.Chain.weightsAt x off hs) :=
  fun _ => hx _

theorem isReal_rowAt {x : FVec Ideal Cert.KernelIdeal.S3x128 .f32} (hx : IsReal x) (off : Fin 2 → Nat)
    (hs : Cert.KernelIdeal.S3x128.Slices off Cert.KernelIdeal.S1x128) : IsReal (Cert.KernelIdeal.Chain.rowAt x off hs) :=
  fun _ => hx _

theorem isReal_rowCast {v : FVec Ideal Cert.KernelIdeal.S128 .f32} (hv : IsReal v) :
    IsReal (shapeCast Cert.KernelIdeal.S1x128 v Cert.KernelIdeal.Gen.shapeCasts_S128_S1x128 : Arr OD) :=
  fun _ => hv _

theorem stage0 (x0 : FVec Ideal Cert.KernelIdeal.S50000x128 .f32) (x2 : FVec Ideal Cert.KernelIdeal.S128x128 .f32)
    (x3 : FVec Ideal Cert.KernelIdeal.S128 .f32) (r0 : IsReal x0) (r2 : IsReal x2) (r3 : IsReal x3) :
    Cert.ReferenceIdeal.Stages.refH0 x0 x2 x3 = linRelu x0 x2 (shapeCast Cert.KernelIdeal.S1x128 x3 Cert.KernelIdeal.Gen.shapeCasts_S128_S1x128)
      ∧ IsReal (linRelu x0 x2 (shapeCast Cert.KernelIdeal.S1x128 x3 Cert.KernelIdeal.Gen.shapeCasts_S128_S1x128)) := by
  refine ⟨?_, isReal_linRelu r0 r2 (isReal_rowCast r3)⟩
  rw [Cert.ReferenceIdeal.Stages.refH0_eq, row_of_shapeCast]

theorem layerStep (e : IVec Cert.KernelIdeal.S2x800000 32) (he : Cert.KernelIdeal.Agg.SrcInRange e)
    (x4 : FVec Ideal Cert.KernelIdeal.S3x128x128 .f32) (x5 x6 x7 : FVec Ideal Cert.KernelIdeal.S3x128 .f32)
    (r4 : IsReal x4) (r5 : IsReal x5) (r6 : IsReal x6) (r7 : IsReal x7) (h : Arr ND) (hh : IsReal h)
    (off3 : Fin 3 → Nat) (hs3K : Cert.KernelIdeal.S3x128x128.Slices off3 Cert.KernelIdeal.S1x128x128)
    (hs3R : Cert.ReferenceIdeal.S3x128x128.Slices off3 Cert.ReferenceIdeal.S1x128x128)
    (off2 : Fin 2 → Nat) (hs2K : Cert.KernelIdeal.S3x128.Slices off2 Cert.KernelIdeal.S1x128) (hs2R : Cert.ReferenceIdeal.S3x128.Slices off2 Cert.ReferenceIdeal.S1x128) :
    Cert.ReferenceIdeal.Stages.refLayer (Cert.ReferenceIdeal.Stages.srcOf e) (Cert.ReferenceIdeal.Stages.dstOf e) h (Cert.ReferenceIdeal.Stages.weightsAt x4 off3 hs3R)
        (Cert.ReferenceIdeal.Stages.vectorAt x5 off2 hs2R) (Cert.ReferenceIdeal.Stages.vectorAt x6 off2 hs2R) (Cert.ReferenceIdeal.Stages.vectorAt x7 off2 hs2R)
      = layerMoments (Cert.KernelIdeal.Agg.aggFill e) h (Cert.KernelIdeal.Chain.weightsAt x4 off3 hs3K) (Cert.KernelIdeal.Chain.rowAt x5 off2 hs2K)
          (Cert.KernelIdeal.Chain.rowAt x6 off2 hs2K) (Cert.KernelIdeal.Chain.rowAt x7 off2 hs2K)
      ∧ IsReal (layerMoments (Cert.KernelIdeal.Agg.aggFill e) h (Cert.KernelIdeal.Chain.weightsAt x4 off3 hs3K) (Cert.KernelIdeal.Chain.rowAt x5 off2 hs2K)
          (Cert.KernelIdeal.Chain.rowAt x6 off2 hs2K) (Cert.KernelIdeal.Chain.rowAt x7 off2 hs2K)) := by
  have hw := isReal_weightsAt r4 off3 hs3K
  have hb := isReal_rowAt r5 off2 hs2K
  have hg := isReal_rowAt r6 off2 hs2K
  have hbe := isReal_rowAt r7 off2 hs2K
  have hz : IsReal (gnnZ h (Cert.KernelIdeal.Agg.aggPlain e h) (Cert.KernelIdeal.Chain.weightsAt x4 off3 hs3K) (Cert.KernelIdeal.Chain.rowAt x5 off2 hs2K)) :=
    isReal_gnnZ hh (Cert.KernelIdeal.Agg.isReal_aggPlain e hh) hw hb
  rw [Cert.ReferenceIdeal.Stages.refLayer_eq, ← aggPlain_eq, ← weightsAt_eq x4 off3 hs3K hs3R, ← rowAt_eq x5 off2 hs2K hs2R,
    ← rowAt_eq x6 off2 hs2K hs2R, ← rowAt_eq x7 off2 hs2K hs2R, Cert.KernelIdeal.Agg.aggFill_eq e he,
    layer_eq (Cert.KernelIdeal.Agg.aggPlain e) h _ _ _ _ hz]
  exact ⟨rfl, isReal_layerDeviations _ _ _ _ _ _ hz hg hbe⟩

theorem headStep (t : Arr ND) (x8 : FVec Ideal Cert.KernelIdeal.S128x1 .f32) (x9 : FVec Ideal Cert.KernelIdeal.S1 .f32) :
    Cert.ReferenceIdeal.Stages.refHead t x8 x9 = head t x8 (shapeCast Cert.KernelIdeal.S1x1 x9 Cert.KernelIdeal.Gen.shapeCasts_S1_S1x1) := by
  rw [Cert.ReferenceIdeal.Stages.refHead_eq, cell_of_shapeCast]

theorem results_eq [hPre_finite_inputs : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    Cert.ReferenceIdeal.Stages.rOut m' c = Cert.KernelIdeal.Chain.outCol m c ∧ Cert.ReferenceIdeal.Stages.rTable3 m' c = Cert.KernelIdeal.Chain.table3 m c := by
  obtain ⟨h0, h1, h2, h3, h4, h5, h6, h7, h8, h9⟩ := hag c
  obtain ⟨r0, r2, r3, r4, r5, r6, r7, r8, r9, hsrc⟩ := Cert.PreFacts.of_pre _ _ _ _ _ _ _ _ _ _ (hpre c)

  have e0 : Cert.ReferenceIdeal.Stages.rTable0 m' c = Cert.KernelIdeal.Chain.table0 m c ∧ IsReal (Cert.KernelIdeal.Chain.table0 m c) := by
    unfold Cert.ReferenceIdeal.Stages.rTable0 Cert.KernelIdeal.Chain.table0 Cert.KernelIdeal.Chain.biasFt
    rw [h0, h2, h3]
    exact stage0 _ _ _ r0 r2 r3

  have step : ∀ (tR : FVec Ideal Cert.ReferenceIdeal.S50000x128 .f32) (tK : Arr ND), tR = tK → IsReal tK →
      ∀ (off3 : Fin 3 → Nat) (hs3K : Cert.KernelIdeal.S3x128x128.Slices off3 Cert.KernelIdeal.S1x128x128)
        (hs3R : Cert.ReferenceIdeal.S3x128x128.Slices off3 Cert.ReferenceIdeal.S1x128x128)
        (off2 : Fin 2 → Nat) (hs2K : Cert.KernelIdeal.S3x128.Slices off2 Cert.KernelIdeal.S1x128) (hs2R : Cert.ReferenceIdeal.S3x128.Slices off2 Cert.ReferenceIdeal.S1x128),
        Cert.ReferenceIdeal.Stages.rLayer m' c tR off3 hs3R off2 hs2R = Cert.KernelIdeal.Chain.layer m c tK off3 hs3K off2 hs2K
          ∧ IsReal (Cert.KernelIdeal.Chain.layer m c tK off3 hs3K off2 hs2K) := by
    intro tR tK ht hr off3 hs3K hs3R off2 hs2K hs2R
    subst ht
    unfold Cert.ReferenceIdeal.Stages.rLayer Cert.KernelIdeal.Chain.layer Cert.KernelIdeal.Chain.edges
    rw [h1, h4, h5, h6, h7]
    exact layerStep _ hsrc _ _ _ _ r4 r5 r6 r7 _ hr off3 hs3K hs3R off2 hs2K hs2R
  have e1 : Cert.ReferenceIdeal.Stages.rTable1 m' c = Cert.KernelIdeal.Chain.table1 m c ∧ IsReal (Cert.KernelIdeal.Chain.table1 m c) :=
    step _ _ e0.1 e0.2 _ _ _ _ _ _
  have e2 : Cert.ReferenceIdeal.Stages.rTable2 m' c = Cert.KernelIdeal.Chain.table2 m c ∧ IsReal (Cert.KernelIdeal.Chain.table2 m c) :=
    step _ _ e1.1 e1.2 _ _ _ _ _ _
  have e3 : Cert.ReferenceIdeal.Stages.rTable3 m' c = Cert.KernelIdeal.Chain.table3 m c ∧ IsReal (Cert.KernelIdeal.Chain.table3 m c) :=
    step _ _ e2.1 e2.2 _ _ _ _ _ _
  refine ⟨?_, e3.1⟩
  unfold Cert.ReferenceIdeal.Stages.rOut Cert.KernelIdeal.Chain.outCol Cert.KernelIdeal.Chain.biasHead
  rw [e3.1, h8, h9]
  exact headStep _ _ _

end Cert.Bridge

end
-- ==== Proof.lean ====
/-
  Both programs compute h₀ = max (x·W + b) 0, three layers h ↦ max ((z − μ)·rsqrt(var + ε)·γ + β) 0 with
  z = (h + agg h)·W_l + b_l and μ, var the column statistics of z over the 50000 nodes, and the head 1 / (1 + exp (−(h₃·w + b))).
  The kernel takes var as the mean of z² minus μ², the reference as the mean of (z − μ)²: one number for real z, and z is
  real because the inputs are finite and every stage keeps its table real. The two gathers agree where every source index
  is in 0 … 49999, which the precondition says.
-/
import proofs.«407668_j26396869001791_1_alg».proof.Defs
import proofs.«407668_j26396869001791_1_alg».proof.Proof.Gen.Kernel
import proofs.«407668_j26396869001791_1_alg».proof.Proof.Gen.Kernel.Frame
import proofs.«407668_j26396869001791_1_alg».proof.Proof.Gen.KernelIdeal
import proofs.«407668_j26396869001791_1_alg».proof.Proof.Gen.KernelIdeal.Frame
import proofs.«407668_j26396869001791_1_alg».proof.Proof.Gen.ReferenceIdeal
import proofs.«407668_j26396869001791_1_alg».proof.Proof.Gen.Pre_finite_inputs
import proofs.«407668_j26396869001791_1_alg».proof.Proof.KHead
import proofs.«407668_j26396869001791_1_alg».proof.Proof.RefRun
import proofs.«407668_j26396869001791_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.RunHand.run m ρ)

theorem preserves : Cert.preserves_Kernel_KernelIdeal := trivial

theorem algebraic : Cert.algebraic_KernelIdeal_ReferenceIdeal := by
  intro m ρ m' ρ' hpre hag
  refine ⟨fun c => Cert.KernelIdeal.Chain.outCol m c, fun c => Cert.KernelIdeal.Chain.table3 m c,
    Cert.KernelIdeal.Chain.run m ρ, ?_⟩
  exact (θ_run Cert.ReferenceIdeal.defs _ _).mono
    (fun _ h c => ⟨(h c).1.trans (Cert.Bridge.results_eq m m' hpre hag c).1,
      (h c).2.1.trans (Cert.Bridge.results_eq m m' hpre hag c).2, (h c).2.2⟩)
    (Cert.ReferenceIdeal.RunHand.run m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
